-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S16 .f32) (main_arg14 : FVec F S16x1 .f32) (main_arg15 : FVec F S1 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x1 .f32 := Host.absf main_arg14
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg12
  let main_cst_18 : FVec F S_ .f32 := constant S_ .f32 0x7F800000#32
  let main_v50 : FVec F S32x16 .f32 := broadcastInDim S32x16 ![] bcast_S_S32x16 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x800000 32) (main_arg2 : FVec F S800000 .f32) (main_arg3 : IVec S50000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S10000x64 : Shape := ⟨2, ![10000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S51200x64 : Shape := ⟨2, ![51200, 64]⟩
abbrev S1200 : Shape := ⟨1, ![1200]⟩
abbrev S51200 : Shape := ⟨1, ![51200]⟩
abbrev S64x1 : Shape := ⟨2, ![64, 1]⟩
abbrev S1x51200 : Shape := ⟨2, ![1, 51200]⟩
abbrev S64x51200 : Shape := ⟨2, ![64, 51200]⟩
abbrev S64x5120 : Shape := ⟨2, ![64, 5120]⟩
abbrev S5120x64 : Shape := ⟨2, ![5120, 64]⟩
abbrev S1x32 : Shape := ⟨2, ![1, 32]⟩
abbrev S1x16 : Shape := ⟨2, ![1, 16]⟩
abbrev S1x1 : Shape := ⟨2, ![1, 1]⟩
abbrev S64x16 : Shape := ⟨2, ![64, 16]⟩

abbrev nBuf : Space → Nat
  | .hbm => 93
  | .vmem => 37
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S16x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x1, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S800000x1, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S800000x1, .f32⟩
  | .hbm, ⟨67, _⟩ => ⟨S800000x64, .f32⟩
  | .hbm, ⟨68, _⟩ => ⟨S800000x64, .f32⟩
  | .hbm, ⟨69, _⟩ => ⟨S_, .f32⟩
  | .hbm, ⟨70, _⟩ => ⟨S50000x64, .f32⟩
  | .hbm, ⟨71, _⟩ => ⟨S800000x1, .i32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S_, .i32⟩
  | .hbm, ⟨76, _⟩ => ⟨S_, .f32⟩
  | .hbm, ⟨77, _⟩ => ⟨S51200x64, .f32⟩
  | .hbm, ⟨78, _⟩ => ⟨S_, .i32⟩
  | .hbm, ⟨79, _⟩ => ⟨S1200, .i32⟩
  | .hbm, ⟨80, _⟩ => ⟨S51200, .i32⟩
  | .hbm, ⟨81, _⟩ => ⟨S64, .i32⟩
  | .hbm, ⟨82, _⟩ => ⟨S64x1, .i32⟩
  | .hbm, ⟨83, _⟩ => ⟨S1x51200, .i32⟩
  | .hbm, ⟨84, _⟩ => ⟨S64x51200, .i32⟩
  | .hbm, ⟨85, _⟩ => ⟨S64x51200, .i32⟩
  | .hbm, ⟨86, _⟩ => ⟨S64x51200, .i1⟩
  | .hbm, ⟨87, _⟩ => ⟨S64x51200, .f32⟩
  | .hbm, ⟨88, _⟩ => ⟨S64x64, .f32⟩
  | .hbm, ⟨89, _⟩ => ⟨S1x32, .f32⟩
  | .hbm, ⟨90, _⟩ => ⟨S1x16, .f32⟩
  | .hbm, ⟨91, _⟩ => ⟨S1x1, .f32⟩
  | .hbm, ⟨92, _⟩ => ⟨S64x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S64x5120, .f32⟩
  | .local _ .vmem, ⟨23, _⟩ => ⟨S64x5120, .f32⟩
  | .local _ .vmem, ⟨24, _⟩ => ⟨S5120x64, .f32⟩
  | .local _ .vmem, ⟨25, _⟩ => ⟨S5120x64, .f32⟩
  | .local _ .vmem, ⟨26, _⟩ => ⟨S64x64, .f32⟩
  | .local _ .vmem, ⟨27, _⟩ => ⟨S64x64, .f32⟩
  | .local _ .vmem, ⟨28, _⟩ => ⟨S64x1, .f32⟩
  | .local _ .vmem, ⟨29, _⟩ => ⟨S64x64, .f32⟩
  | .local _ .vmem, ⟨30, _⟩ => ⟨S64x32, .f32⟩
  | .local _ .vmem, ⟨31, _⟩ => ⟨S1x32, .f32⟩
  | .local _ .vmem, ⟨32, _⟩ => ⟨S32x16, .f32⟩
  | .local _ .vmem, ⟨33, _⟩ => ⟨S1x16, .f32⟩
  | .local _ .vmem, ⟨34, _⟩ => ⟨S16x1, .f32⟩
  | .local _ .vmem, ⟨35, _⟩ => ⟨S1x1, .f32⟩
  | .local _ .vmem, ⟨36, _⟩ => ⟨S64x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_call0_v0 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_scratch0 : Ref sig .tc := ⟨.vmem, 27, rfl⟩
abbrev cc4_scratch1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg6_0 : Ref sig .tc := ⟨.vmem, 35, rfl⟩
abbrev cc5_stg7_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem6_0 : DmaSem sig := 33
abbrev cc5_sem7_0 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_13 : BitVec 32 := 0#32
  let v24 : BitVec 1 := Scalar.cmpi .ne v23 c0_i32_13
  v24

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S64x5120 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5120x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  pads_S50000x64_S51200x64_012000_000 : S50000x64.Pads (![0, 0] : Fin 2 → Nat) ![1200, 0] ![0, 0] S51200x64
  h_S_ : 0 < S_.numel
  bcast_S_S1200 : S_.BroadcastsInDim S1200 (![] : Fin 0 → Fin S1200.rank)
  concatenates_S50000_S1200_S51200_d0 : Shape.Concatenates [S50000, S1200] S51200 0
  bcast_S64_S64x1_0 : S64.BroadcastsInDim S64x1 (![0] : Fin 1 → Fin S64x1.rank)
  bcast_S51200_S1x51200_1 : S51200.BroadcastsInDim S1x51200 (![1] : Fin 1 → Fin S1x51200.rank)
  bcast_S1x51200_S64x51200_0_1 : S1x51200.BroadcastsInDim S64x51200 (![0, 1] : Fin 2 → Fin S64x51200.rank)
  bcast_S64x1_S64x51200_0_1 : S64x1.BroadcastsInDim S64x51200 (![0, 1] : Fin 2 → Fin S64x51200.rank)
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x5120_S64x5120_0_0 : ∀ a, (![0, 0] : Fin 2 → Nat) a + S64x5120.size a ≤ S64x5120.size a
  h_S64x5120 : 0 < S64x5120.numel
  shapeCasts_S64x5120_S64x5120 : S64x5120.ShapeCasts S64x5120
  inb_S5120x64_S5120x64_0_0 : ∀ a, (![0, 0] : Fin 2 → Nat) a + S5120x64.size a ≤ S5120x64.size a
  h_S5120x64 : 0 < S5120x64.numel
  shapeCasts_S5120x64_S5120x64 : S5120x64.ShapeCasts S5120x64
  reduces_S64x5120_S64 : S64x5120.Reduces [1] S64
  shapeCasts_S64_S64x1 : S64.ShapeCasts S64x1
  broadcasts_S64x1_S64x64 : S64x1.Broadcasts S64x64
  shapeCasts_S32_S1x32 : S32.ShapeCasts S1x32
  shapeCasts_S16_S1x16 : S16.ShapeCasts S1x16
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S64x5120_S5120x64_S64x64_1_0_0_1_n_n_wf : DotDims.WF S64x5120 S5120x64 S64x64 [1] [0] [0] [1] [] []
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x5120.size a ≤ S64x51200.size a
  hwx4_0 : ∀ i : grid4.Coords, EltTy.bits .f32 = 32 ∨ (Rect.block (s := S64x51200) S64x5120.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5120x64.size a ≤ S51200x64.size a
  hwx4_1 : ∀ i : grid4.Coords, EltTy.bits .f32 = 32 ∨ (Rect.block (s := S51200x64) S5120x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x64.size a ≤ S64x64.size a
  hwx5_0 : ∀ i : grid5.Coords, EltTy.bits .f32 = 32 ∨ (Rect.block (s := S64x64) S64x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x16.size a ≤ S32x16.size a
  hwx5_3 : ∀ i : grid5.Coords, EltTy.bits .f32 = 32 ∨ (Rect.block (s := S32x16) S32x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x1.size a ≤ S16x1.size a
  hwx5_5 : ∀ i : grid5.Coords, EltTy.bits .f32 = 32 ∨ (Rect.block (s := S16x1) S16x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x1.size a ≤ S64x1.size a
  hwx5_7 : ∀ i : grid5.Coords, EltTy.bits .f32 = 32 ∨ (Rect.block (s := S64x1) S64x1.size (cc5_transform_7 i) (hinb5_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S64x5120_S5120x64_S64x64_1_0_0_1_n_n : DotDims S64x5120 S5120x64 S64x64 where
  lhsContracting := [1]
  rhsContracting := [0]
  lhsNonContracting := [0]
  rhsNonContracting := [1]
  lhsBatch := []
  rhsBatch := []
  wf := dot_S64x5120_S5120x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S64x5120.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S5120x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v60) S64x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S32x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg14) S16x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v63) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v64) S64x1.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩
abbrev S64x16 : Shape := ⟨2, ![64, 16]⟩
abbrev S1x16 : Shape := ⟨2, ![1, 16]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S16x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x1, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S800000x1, .f32⟩
  | .hbm, ⟨77, _⟩ => ⟨S800000x64, .f32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S64x64, .f32⟩
  | .hbm, ⟨91, _⟩ => ⟨S50000x1, .i32⟩
  | .hbm, ⟨92, _⟩ => ⟨S64x64, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S64, .f32⟩
  | .hbm, ⟨97, _⟩ => ⟨S50000x1, .i32⟩
  | .hbm, ⟨98, _⟩ => ⟨S64, .f32⟩
  | .hbm, ⟨99, _⟩ => ⟨S_, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x64, .f32⟩
  | .hbm, ⟨105, _⟩ => ⟨S64x64, .f32⟩
  | .hbm, ⟨106, _⟩ => ⟨S64x32, .f32⟩
  | .hbm, ⟨107, _⟩ => ⟨S1x32, .f32⟩
  | .hbm, ⟨108, _⟩ => ⟨S64x32, .f32⟩
  | .hbm, ⟨109, _⟩ => ⟨S64x32, .f32⟩
  | .hbm, ⟨110, _⟩ => ⟨S_, .f32⟩
  | .hbm, ⟨111, _⟩ => ⟨S64x32, .f32⟩
  | .hbm, ⟨112, _⟩ => ⟨S64x32, .f32⟩
  | .hbm, ⟨113, _⟩ => ⟨S64x16, .f32⟩
  | .hbm, ⟨114, _⟩ => ⟨S1x16, .f32⟩
  | .hbm, ⟨115, _⟩ => ⟨S64x16, .f32⟩
  | .hbm, ⟨116, _⟩ => ⟨S64x16, .f32⟩
  | .hbm, ⟨117, _⟩ => ⟨S_, .f32⟩
  | .hbm, ⟨118, _⟩ => ⟨S64x16, .f32⟩
  | .hbm, ⟨119, _⟩ => ⟨S64x16, .f32⟩
  | .hbm, ⟨120, _⟩ => ⟨S64x1, .f32⟩
  | .hbm, ⟨121, _⟩ => ⟨S1x1, .f32⟩
  | .hbm, ⟨122, _⟩ => ⟨S64x1, .f32⟩
  | .hbm, ⟨123, _⟩ => ⟨S64x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call0_cst : Ref sig .tc := ⟨.hbm, 40, rfl⟩
abbrev main_call0_v0 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_c_4 : Ref sig .tc := ⟨.hbm, 67, rfl⟩
abbrev main_v41 : Ref sig .tc := ⟨.hbm, 68, rfl⟩
abbrev main_v42 : Ref sig .tc := ⟨.hbm, 69, rfl⟩
abbrev main_c_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call4_cst : Ref sig .tc := ⟨.hbm, 110, rfl⟩
abbrev main_call4_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call5_cst : Ref sig .tc := ⟨.hbm, 117, rfl⟩
abbrev main_call5_v0 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.KB.Reg0.lean ====
import proofs.«407319_j12446815224334_1_alg».proof.Proof.Gen.Kernel.Launch
import proofs.«407319_j12446815224334_1_alg».proof.Proof.Gen.Kernel.Skeleton
import proofs.«407319_j12446815224334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x64 := Rect.unit (s := S10000x64) ![0, 0] S10000x64.size inb_S10000x64_S10000x64_0_0
abbrev r0_w : Rect S64x64 := Rect.unit (s := S64x64) ![0, 0] S64x64.size inb_S64x64_S64x64_0_0

/-- The output block as a function of the input blocks: the body's one payload, stored over the whole block. -/
def out0_2 (x0 : Vec F S10000x64 .f32) (x1 : Vec F S64x64 .f32) : Vec F S10000x64 .f32 :=
  View.canon [⟨r0_x, k0_pay1 (View.ld x0 r0_x) (View.ld x1 r0_w)⟩]

theorem cover0_2 (p0 : Vec F S10000x64 .f32) (y : S10000x64.Idx) :
    ∃ pc ∈ ([⟨r0_x, p0⟩] : List (View.Piece (Elt F) S10000x64 .f32)), y ∈ pc.1.set :=
  View.cover_of_tiled [⟨r0_x, p0⟩] S10000x64.size (by rfl) y

set_option maxHeartbeats 1000000 in

theorem sound_kernel0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Region0

end Cert.Kernel.Hand

end
-- ==== Proof.KB.Reg1.lean ====
import proofs.«407319_j12446815224334_1_alg».proof.Proof.Gen.Kernel.Launch
import proofs.«407319_j12446815224334_1_alg».proof.Proof.Gen.Kernel.Skeleton
import proofs.«407319_j12446815224334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rAgg1 : Rect S10000x64 := Rect.unit (s := S10000x64) ![0, 0] S10000x64.size inb_S10000x64_S10000x64_0_0
abbrev rBias1 : Rect S1x64 := Rect.unit (s := S1x64) ![0, 0] S1x64.size inb_S1x64_S1x64_0_0
abbrev rW1 : Rect S64x64 := Rect.unit (s := S64x64) ![0, 0] S64x64.size inb_S64x64_S64x64_0_0

/-- The output block as a function of the input blocks: the body's one payload, stored over the whole block. -/
def out1_3 (x0 : Vec F S10000x64 .f32) (x1 : Vec F S1x64 .f32) (x2 : Vec F S64x64 .f32) : Vec F S10000x64 .f32 :=
  View.canon [⟨rAgg1, k1_pay1 (View.ld x0 rAgg1) (View.ld x1 rBias1) (View.ld x2 rW1)⟩]

theorem cover1_3 (p0 : Vec F S10000x64 .f32) (y : S10000x64.Idx) :
    ∃ pc ∈ ([⟨rAgg1, p0⟩] : List (View.Piece (Elt F) S10000x64 .f32)), y ∈ pc.1.set :=
  View.cover_of_tiled [⟨rAgg1, p0⟩] S10000x64.size (by rfl) y

set_option maxHeartbeats 1000000 in

theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.Kernel.Hand

end
-- ==== Proof.KB.Reg2.lean ====
import proofs.«407319_j12446815224334_1_alg».proof.Proof.Gen.Kernel.Launch
import proofs.«407319_j12446815224334_1_alg».proof.Proof.Gen.Kernel.Skeleton
import proofs.«407319_j12446815224334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rAgg2 : Rect S10000x64 := Rect.unit (s := S10000x64) ![0, 0] S10000x64.size inb_S10000x64_S10000x64_0_0
abbrev rBias2 : Rect S1x64 := Rect.unit (s := S1x64) ![0, 0] S1x64.size inb_S1x64_S1x64_0_0
abbrev rW2 : Rect S64x64 := Rect.unit (s := S64x64) ![0, 0] S64x64.size inb_S64x64_S64x64_0_0

/-- The output block as a function of the input blocks: the body's one payload, stored over the whole block. -/
def out2_3 (x0 : Vec F S10000x64 .f32) (x1 : Vec F S1x64 .f32) (x2 : Vec F S64x64 .f32) : Vec F S10000x64 .f32 :=
  View.canon [⟨rAgg2, k2_pay1 (View.ld x0 rAgg2) (View.ld x1 rBias2) (View.ld x2 rW2)⟩]

theorem cover2_3 (p0 : Vec F S10000x64 .f32) (y : S10000x64.Idx) :
    ∃ pc ∈ ([⟨rAgg2, p0⟩] : List (View.Piece (Elt F) S10000x64 .f32)), y ∈ pc.1.set :=
  View.cover_of_tiled [⟨rAgg2, p0⟩] S10000x64.size (by rfl) y

set_option maxHeartbeats 1000000 in

theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relu_bias_matmul_kernel i arg1 harg1 arg2 harg2 arg3 harg3 arg4 harg4) K := by
  simp only [cc2__relu_bias_matmul_kernel_eq_skeleton]; unfold cc2__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Hand

end
-- ==== Proof.KB.Reg3.lean ====
import proofs.«407319_j12446815224334_1_alg».proof.Proof.Gen.Kernel.Launch
import proofs.«407319_j12446815224334_1_alg».proof.Proof.Gen.Kernel.Skeleton
import proofs.«407319_j12446815224334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

/-- The output block as a function of the input blocks: the body's one payload, stored over the whole block. -/
def out3_2 (x0 : Vec F S10000x64 .f32) (x1 : Vec F S1x64 .f32) : Vec F S10000x64 .f32 :=
  View.canon [⟨r3_0, k3_pay1 (View.ld x0 r3_0) (View.ld x1 r3_1)⟩]

theorem cover3_2 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in

theorem sound_kernel3 (c : Dev nD) (E : Set ℕ) (i : grid3.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__relu_bias_kernel i arg1 harg1 arg2 harg2 arg3 harg3) K := by
  simp only [cc3__relu_bias_kernel_eq_skeleton]; unfold cc3__relu_bias_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Hand

end
-- ==== Proof.KB.Reg4.lean ====
import proofs.«407319_j12446815224334_1_alg».proof.Proof.Gen.Kernel.Launch
import proofs.«407319_j12446815224334_1_alg».proof.Proof.Gen.Kernel.Skeleton
import proofs.«407319_j12446815224334_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel

theorem liveAt4_2 : ∀ t : Fin cfg4.N, cond4_1 (grid4.coords t) → cfg4.idle 2 (grid4.coords t) = false := by decide +kernel

theorem off_zero4 : (![0, 0] : Fin 2 → ℕ) = fun _ => 0 := by
  funext a; fin_cases a <;> rfl

/-- After stores whose last is over the whole shape the contents read as that store's payload. -/
theorem read_writes_last_unit4 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

section Kernel
variable (c : Dev nD) (E : Set ℕ) (i : grid4.Coords)
    (arg1 : Memref sig .tc .vmem S64x5120 .f32) (harg1 : arg1.IsWhole) (arg2 : Memref sig .tc .vmem S5120x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)

set_option maxHeartbeats 1000000 in

theorem kernel4_first (hc0 : cond4_0 i) (hc1 : ¬cond4_1 i)
    (x0 : Vec F S64x5120 .f32) (x1 : Vec F S5120x64 .f32) (xi2 : Vec F S64x64 .f32) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k4_pay4 x0 x1 (k4_pay1 (F := F)))
            ∗ owns (c : Thread nD τ) arg5 fullShare (k4_pay5 x0 (k4_pay2 (F := F)))) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0] <;> (iexists _; isplitr; swap)
  · iexact HS0
  rotate_left
  · iexact HS1
  all_goals
    ipureintro
    sl_unfold_run_names
    rw [read_writes_last_unit4 _ _ off_zero4]
    simp only [View.readAt_eq_ld, View.ld_unit_zero (S := S64x5120) off_zero4, View.ld_unit_zero (S := S5120x64) off_zero4, View.ld_unit_zero (S := S64x64) off_zero4, View.ld_unit_zero (S := S64x1) off_zero4, View.readCov_unit_zero (S := S64x64) _ off_zero4, View.readCov_unit_zero (S := S64x1) _ off_zero4]

set_option maxHeartbeats 1000000 in

theorem kernel4_mid (hc0 : ¬cond4_0 i) (hc1 : ¬cond4_1 i)
    (x0 : Vec F S64x5120 .f32) (x1 : Vec F S5120x64 .f32) (xi2 : Vec F S64x64 .f32) (xs0 : Vec F S64x64 .f32) (xs1 : Vec F S64x1 .f32)
    (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare xi2
            ∗ owns (c : Thread nD τ) arg4 fullShare (k4_pay4 x0 x1 xs0)
            ∗ owns (c : Thread nD τ) arg5 fullShare (k4_pay5 x0 xs1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0] <;> (iexists _; isplitr; swap)
  · iexact HS0
  rotate_left
  · iexact HS1
  all_goals
    ipureintro
    sl_unfold_run_names
    rw [read_writes_last_unit4 _ _ off_zero4]
    simp only [View.readAt_eq_ld, View.ld_unit_zero (S := S64x5120) off_zero4, View.ld_unit_zero (S := S5120x64) off_zero4, View.ld_unit_zero (S := S64x64) off_zero4, View.ld_unit_zero (S := S64x1) off_zero4, View.readCov_unit_zero (S := S64x64) _ off_zero4, View.readCov_unit_zero (S := S64x1) _ off_zero4]

set_option maxHeartbeats 1000000 in

theorem kernel4_last (hc0 : ¬cond4_0 i) (hc1 : cond4_1 i)
    (x0 : Vec F S64x5120 .f32) (x1 : Vec F S5120x64 .f32) (xs0 : Vec F S64x64 .f32) (xs1 : Vec F S64x1 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k4_pay6 (k4_pay4 x0 x1 xs0) (k4_pay5 x0 xs1))
            ∗ owns (c : Thread nD τ) arg4 fullShare (k4_pay4 x0 x1 xs0)
            ∗ owns (c : Thread nD τ) arg5 fullShare (k4_pay5 x0 xs1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  rotate_left
  isplitl [HS0]
  all_goals (iexists _; isplitr; swap)
  · iexact HS0
  rotate_left
  · iexact HS1
  rotate_left
  · iexact H2
  all_goals
    ipureintro
    sl_unfold_run_names
    rw [read_writes_last_unit4 _ _ off_zero4]
    simp only [View.readAt_eq_ld, View.ld_unit_zero (S := S64x5120) off_zero4, View.ld_unit_zero (S := S5120x64) off_zero4, View.ld_unit_zero (S := S64x64) off_zero4, View.ld_unit_zero (S := S64x1) off_zero4, View.readCov_unit_zero (S := S64x64) _ off_zero4, View.readCov_unit_zero (S := S64x1) _ off_zero4]

end Kernel

section Region
variable (V : (c : Dev nD) → (b : Ref sig .tc) → Buf (Elt F) ((c : Thread nD τ).loc b))

/-- Window w's block at grid point t, read off the array the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ohblk (c : Dev nD) (t : Fin cfg4.N) : Vec F S64x5120 .f32 := iblk4 V c 0 t

abbrev hblk (c : Dev nD) (t : Fin cfg4.N) : Vec F S5120x64 .f32 := iblk4 V c 1 t

/-- The 64 × 64 accumulator after point n: the zero fill updated by the product payload once per point 0 … n. -/
def acc0At (c : Dev nD) : (n : ℕ) → n < cfg4.N → Vec F S64x64 .f32
  | 0, hn => k4_pay4 (ohblk V c ⟨0, hn⟩) (hblk V c ⟨0, hn⟩) (k4_pay1 (F := F))
  | n + 1, hn => k4_pay4 (ohblk V c ⟨n + 1, hn⟩) (hblk V c ⟨n + 1, hn⟩) (acc0At c n (Nat.lt_of_succ_lt hn))

/-- The 64 × 1 accumulator of row sums after point n, likewise. -/
def acc1At (c : Dev nD) : (n : ℕ) → n < cfg4.N → Vec F S64x1 .f32
  | 0, hn => k4_pay5 (ohblk V c ⟨0, hn⟩) (k4_pay2 (F := F))
  | n + 1, hn => k4_pay5 (ohblk V c ⟨n + 1, hn⟩) (acc1At c n (Nat.lt_of_succ_lt hn))

theorem acc0At_first (c : Dev nD) (t : Fin cfg4.N) (hz : t.val = 0) :
    acc0At V c t.val t.isLt = k4_pay4 (ohblk V c t) (hblk V c t) (k4_pay1 (F := F)) := by
  obtain ⟨n, hn⟩ := t; subst hz; rfl
theorem acc1At_first (c : Dev nD) (t : Fin cfg4.N) (hz : t.val = 0) :
    acc1At V c t.val t.isLt = k4_pay5 (ohblk V c t) (k4_pay2 (F := F)) := by
  obtain ⟨n, hn⟩ := t; subst hz; rfl

theorem acc0At_pos (c : Dev nD) (t : Fin cfg4.N) (hz : t.val ≠ 0) :
    acc0At V c t.val t.isLt = k4_pay4 (ohblk V c t) (hblk V c t) (acc0At V c (t.val - 1) (Nat.lt_of_le_of_lt (Nat.sub_le _ _) t.isLt)) := by
  obtain ⟨n, hn⟩ := t
  cases n with
  | zero => exact absurd rfl hz
  | succ n => rfl
theorem acc1At_pos (c : Dev nD) (t : Fin cfg4.N) (hz : t.val ≠ 0) :
    acc1At V c t.val t.isLt = k4_pay5 (ohblk V c t) (acc1At V c (t.val - 1) (Nat.lt_of_le_of_lt (Nat.sub_le _ _) t.isLt)) := by
  obtain ⟨n, hn⟩ := t
  cases n with
  | zero => exact absurd rfl hz
  | succ n => rfl

abbrev scM4_0 : Memref sig .tc .vmem S64x64 .f32 := Memref.whole cc4_scratch0
abbrev scM4_1 : Memref sig .tc .vmem S64x1 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The invariant before point n: at n = 0 the entry invariant, later both accumulators at what point n - 1 left. -/
def PhiS4 (c : Dev nD) : (n : ℕ) → n ≤ cfg4.N → sProp 𝕄
  | 0, _ => Pipeline.ΦA spec4 c
  | n + 1, hn => iprop(iprop(iprop(owns (c : Thread nD τ) scM4_0 fullShare (acc0At V c n hn) ∗ owns (c : Thread nD τ) scM4_1 fullShare (acc1At V c n hn))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare (acc0At V c n hn) ∗ owns (c : Thread nD τ) scM4_1 fullShare (acc1At V c n hn))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare (acc0At V c (n - 1) (by omega)) ∗ owns (c : Thread nD τ) scM4_1 fullShare (acc1At V c (n - 1) (by omega)))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (acc0At V c t.val t.isLt) (acc1At V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := rfl
theorem after4_1 (c : Dev nD) (t : Fin cfg4.N) : (dat4 V c).after 1 t = iblk4 V c 1 t := rfl

theorem after4_2 (c : Dev nD) (t : Fin cfg4.N) :
    (dat4 V c).after 2 t = k4_pay6 (acc0At V c t.val t.isLt) (acc1At V c t.val t.isLt) := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases hz : t.val = 0
  · have hc0 : cond4_0 (grid4.coords t) := (hcond4_0 t).mpr hz
    have hc1 : ¬cond4_1 (grid4.coords t) := fun h => by have := (hcond4_1 t).mp h; omega
    rw [Dat.leavesExact_idle (dat4 V c) 2 t (idleAt4_2 t hc1) (noFlush4_2 t hc1)]
    rw [acc0At_first V c t hz, acc1At_first V c t hz]
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩⟩
    iapply (kernel4_first c Set.univ (grid4.coords t) _ _ _ _ _ _ _ _ _ _ hc0 hc1 (ohblk V c t) (hblk V c t) ((dat4 V c).before 2 t d2) _)
    iframe
    iintro ⟨H0, H1, H2, HS0, HS1⟩
    iframe
    iexists _; iexact H2
  · by_cases h9 : t.val = 9
    · have hc0 : ¬cond4_0 (grid4.coords t) := fun h => hz ((hcond4_0 t).mp h)
      have hc1 : cond4_1 (grid4.coords t) := (hcond4_1 t).mpr h9
      rw [show (dat4 V c).leavesExact 2 t = owns (c : Thread nD τ) (st4_2 t) fullShare ((dat4 V c).after 2 t) from by
        unfold Dat.leavesExact; rw [liveAt4_2 t hc1], after4_2]
      rw [acc0At_pos V c t hz, acc1At_pos V c t hz]
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply (kernel4_last c Set.univ (grid4.coords t) _ _ _ _ _ _ _ _ _ _ hc0 hc1 (ohblk V c t) (hblk V c t) _ _ _)
      iframe
      isplitl [H2]; · iexists _; iexact H2
      iintro ⟨H0, H1, H2, HS0, HS1⟩
      iframe
    · have hc0 : ¬cond4_0 (grid4.coords t) := fun h => hz ((hcond4_0 t).mp h)
      have hc1 : ¬cond4_1 (grid4.coords t) := fun h => h9 ((hcond4_1 t).mp h)
      rw [Dat.leavesExact_idle (dat4 V c) 2 t (idleAt4_2 t hc1) (noFlush4_2 t hc1)]
      rw [acc0At_pos V c t hz, acc1At_pos V c t hz]
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply (kernel4_mid c Set.univ (grid4.coords t) _ _ _ _ _ _ _ _ _ _ hc0 hc1 (ohblk V c t) (hblk V c t) ((dat4 V c).before 2 t d2) _ _ _)
      iframe
      iintro ⟨H0, H1, H2, HS0, HS1⟩
      iframe
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 10 := N_4; omega)

end Region

end Cert.Kernel.Hand

end
-- ==== Proof.KB.Reg5.lean ====
import proofs.«407319_j12446815224334_1_alg».proof.Proof.Gen.Kernel.Launch
import proofs.«407319_j12446815224334_1_alg».proof.Proof.Gen.Kernel.Skeleton
import proofs.«407319_j12446815224334_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

/-- Window w's block at grid point t, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S64x64 := Rect.unit (s := S64x64) ![0, 0] S64x64.size inb_S64x64_S64x64_0_0
abbrev r5_1 : Rect S64x32 := Rect.unit (s := S64x32) ![0, 0] S64x32.size inb_S64x32_S64x32_0_0
abbrev r5_2 : Rect S1x32 := Rect.unit (s := S1x32) ![0, 0] S1x32.size inb_S1x32_S1x32_0_0
abbrev r5_3 : Rect S32x16 := Rect.unit (s := S32x16) ![0, 0] S32x16.size inb_S32x16_S32x16_0_0
abbrev r5_4 : Rect S1x16 := Rect.unit (s := S1x16) ![0, 0] S1x16.size inb_S1x16_S1x16_0_0
abbrev r5_5 : Rect S16x1 := Rect.unit (s := S16x1) ![0, 0] S16x1.size inb_S16x1_S16x1_0_0
abbrev r5_6 : Rect S1x1 := Rect.unit (s := S1x1) ![0, 0] S1x1.size inb_S1x1_S1x1_0_0
abbrev r5_7 : Rect S64x1 := Rect.unit (s := S64x1) ![0, 0] S64x1.size inb_S64x1_S64x1_0_0

/-- The output block as a function of the input blocks: the body's one payload, stored over the whole block. -/
def out5_7 (x0 : Vec F S64x64 .f32) (x1 : Vec F S64x32 .f32) (x2 : Vec F S1x32 .f32) (x3 : Vec F S32x16 .f32) (x4 : Vec F S1x16 .f32) (x5 : Vec F S16x1 .f32) (x6 : Vec F S1x1 .f32) : Vec F S64x1 .f32 :=
  View.canon [⟨r5_7, k5_pay1 (View.ld x0 r5_0) (View.ld x1 r5_1) (View.ld x2 r5_2) (View.ld x3 r5_3) (View.ld x4 r5_4) (View.ld x5 r5_5) (View.ld x6 r5_6)⟩]

theorem cover5_7 (p0 : Vec F S64x1 .f32) (y : S64x1.Idx) :
    ∃ pc ∈ ([⟨r5_7, p0⟩] : List (View.Piece (Elt F) S64x1 .f32)), y ∈ pc.1.set :=
  View.cover_of_tiled [⟨r5_7, p0⟩] S64x1.size (by rfl) y

set_option maxHeartbeats 1000000 in

theorem sound_kernel5 (c : Dev nD) (E : Set ℕ) (i : grid5.Coords) (arg1 : Memref sig .tc .vmem S64x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S1x1 .f32) (harg7 : arg7.IsWhole) (arg8 : Memref sig .tc .vmem S64x1 .f32) (harg8 : arg8.IsWhole)
    (x0 : Vec F S64x64 .f32) (x1 : Vec F S64x32 .f32) (x2 : Vec F S1x32 .f32) (x3 : Vec F S32x16 .f32) (x4 : Vec F S1x16 .f32) (x5 : Vec F S16x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__mlp_kernel i arg1 harg1 arg2 harg2 arg3 harg3 arg4 harg4 arg5 harg5 arg6 harg6 arg7 harg7 arg8 harg8) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := rfl
theorem q_eq5 (c : Dev nD) (w : Fin cfg5.W) : (dat5 V c).q w = fullShare := rfl
theorem owed_eq5 (c : Dev nD) (t : Fin (cfg5.N + 1)) : (dat5 V c).owed t = 0 := rfl

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) : (dat5 V c).after 3 t = iblk5 V c 3 t := rfl
theorem after5_4 (c : Dev nD) (t : Fin cfg5.N) : (dat5 V c).after 4 t = iblk5 V c 4 t := rfl
theorem after5_5 (c : Dev nD) (t : Fin cfg5.N) : (dat5 V c).after 5 t = iblk5 V c 5 t := rfl
theorem after5_6 (c : Dev nD) (t : Fin cfg5.N) : (dat5 V c).after 6 t = iblk5 V c 6 t := rfl
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 V c).before 6 t d = iblk5 V c 6 t :=
  ((dat5 V c).before_in_eq_fetched 6 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe
  isplitl [H7]; · iexists _; iexact H7
  iintro ⟨H0, H1, H2, H3, H4, H5, H6, H7⟩
  iframe

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Region5

end Cert.Kernel.Hand

end
-- ==== Proof.KB.Fold.lean ====
import proofs.«407319_j12446815224334_1_alg».proof.Proof.KB.Reg0
import proofs.«407319_j12446815224334_1_alg».proof.Proof.KB.Reg1
import proofs.«407319_j12446815224334_1_alg».proof.Proof.KB.Reg2
import proofs.«407319_j12446815224334_1_alg».proof.Proof.KB.Reg3
import proofs.«407319_j12446815224334_1_alg».proof.Proof.KB.Reg4
import proofs.«407319_j12446815224334_1_alg».proof.Proof.KB.Reg5
import proofs.«407319_j12446815224334_1_alg».proof.Proof.Gen.Kernel.Regions
import Idealize.ShloMosaic.Lib.Pipeline.FrameSuffix

noncomputable section

namespace Cert.Kernel.Hand

open Cert.Kernel Cert.Kernel.Gen
open Idealize.ShloMosaic Idealize.ShloMosaic.TcCoe
open Idealize.ShloMosaic.Pipeline (Dat Cfg)

variable {F : FTy → Type} [FloatOps F]

variable (m : (ℓ : Loc nD τ sig) → Buf (Elt F) ℓ)

abbrev At1 (c : Dev nD) : Valuation τ sig (Elt F) := Gen.V1 m c

def o2 (r : Ref sig .tc) (c : Dev nD) : Buf (Elt F) ((c : Thread nD τ).loc r) :=
  Pipeline.withArrays spec0 c (At1 m c) (fun w => (dat0 (fun c b => At1 m c b) c).arrAt w cfg0.N) (Proc.devRef .tc r)

abbrev At2 (c : Dev nD) : Valuation τ sig (Elt F) := Function.update (At1 m c) main_v4 (o2 m main_v4 c)

abbrev At3 (c : Dev nD) : Valuation τ sig (Elt F) := StableHlo.after hostOps1 (At2 m c)

def o4 (r : Ref sig .tc) (c : Dev nD) : Buf (Elt F) ((c : Thread nD τ).loc r) :=
  Pipeline.withArrays spec1 c (At3 m c) (fun w => (dat1 (fun c b => At3 m c b) c).arrAt w cfg1.N) (Proc.devRef .tc r)

abbrev At4 (c : Dev nD) : Valuation τ sig (Elt F) := Function.update (At3 m c) main_v19 (o4 m main_v19 c)

abbrev At5 (c : Dev nD) : Valuation τ sig (Elt F) := StableHlo.after hostOps2 (At4 m c)

def o6 (r : Ref sig .tc) (c : Dev nD) : Buf (Elt F) ((c : Thread nD τ).loc r) :=
  Pipeline.withArrays spec2 c (At5 m c) (fun w => (dat2 (fun c b => At5 m c b) c).arrAt w cfg2.N) (Proc.devRef .tc r)

abbrev At6 (c : Dev nD) : Valuation τ sig (Elt F) := Function.update (At5 m c) main_v34 (o6 m main_v34 c)

abbrev At7 (c : Dev nD) : Valuation τ sig (Elt F) := StableHlo.after hostOps3 (At6 m c)

def o8 (r : Ref sig .tc) (c : Dev nD) : Buf (Elt F) ((c : Thread nD τ).loc r) :=
  Pipeline.withArrays spec3 c (At7 m c) (fun w => (dat3 (fun c b => At7 m c b) c).arrAt w cfg3.N) (Proc.devRef .tc r)

abbrev At8 (c : Dev nD) : Valuation τ sig (Elt F) := Function.update (At7 m c) main_v49 (o8 m main_v49 c)

abbrev At9 (c : Dev nD) : Valuation τ sig (Elt F) := StableHlo.after hostOps4 (At8 m c)

abbrev At10 (c : Dev nD) : Valuation τ sig (Elt F) := StableHlo.after hostOps4_1 (At9 m c)

abbrev At11 (c : Dev nD) : Valuation τ sig (Elt F) := StableHlo.after hostOps4_2 (At10 m c)

def o12 (r : Ref sig .tc) (c : Dev nD) : Buf (Elt F) ((c : Thread nD τ).loc r) :=
  Pipeline.withArrays spec4 c (At11 m c) (fun w => (dat4 (fun c b => At11 m c b) c).arrAt w cfg4.N) (Proc.devRef .tc r)

abbrev At12 (c : Dev nD) : Valuation τ sig (Elt F) := Function.update (At11 m c) main_v60 (o12 m main_v60 c)

abbrev At13 (c : Dev nD) : Valuation τ sig (Elt F) := StableHlo.after hostOps5 (At12 m c)

def o14 (r : Ref sig .tc) (c : Dev nD) : Buf (Elt F) ((c : Thread nD τ).loc r) :=
  Pipeline.withArrays spec5 c (At13 m c) (fun w => (dat5 (fun c b => At13 m c b) c).arrAt w cfg5.N) (Proc.devRef .tc r)

/-- What each region leaves in every buffer: its output array at the fold of the write-backs, the rest as entered. -/
def outs : Gen.Outs (F := F) := fun J => match J with
  | 2 => o2 m
  | 4 => o4 m
  | 6 => o6 m
  | 8 => o8 m
  | 12 => o12 m
  | 14 => o14 m
  | _ => fun r c => m ((c : Thread nD τ).loc r)

abbrev W1 (c : Dev nD) (b : Ref sig .tc) : Buf (Elt F) ((c : Thread nD τ).loc b) := Gen.V1 m c b
abbrev W3 (c : Dev nD) (b : Ref sig .tc) : Buf (Elt F) ((c : Thread nD τ).loc b) := Gen.V3 m (outs m) c b
abbrev W5 (c : Dev nD) (b : Ref sig .tc) : Buf (Elt F) ((c : Thread nD τ).loc b) := Gen.V5 m (outs m) c b
abbrev W7 (c : Dev nD) (b : Ref sig .tc) : Buf (Elt F) ((c : Thread nD τ).loc b) := Gen.V7 m (outs m) c b
abbrev W11 (c : Dev nD) (b : Ref sig .tc) : Buf (Elt F) ((c : Thread nD τ).loc b) := Gen.V11 m (outs m) c b
abbrev W13 (c : Dev nD) (b : Ref sig .tc) : Buf (Elt F) ((c : Thread nD τ).loc b) := Gen.V13 m (outs m) c b

theorem arrAt_eq_update {cfg : Cfg sig Λ₀} {c : Dev nD} (dat : Dat τ (Elt F) Unit ℕ (UR sig nD τ) ℕ cfg c)
    (Vi : Valuation τ sig (Elt F)) (hA : ∀ w, dat.A w = Vi (Pipeline.arrRef cfg.spec w)) (o : Fin cfg.W)
    (ho : ∀ w, w ≠ o → (cfg.win w).isOut = false ∧ Pipeline.arrRef cfg.spec w ≠ Pipeline.arrRef cfg.spec o)
    (x) (hx : x = dat.arrAt o cfg.N) (w : Fin cfg.W) :
    dat.arrAt w cfg.N = Function.update Vi (Proc.devRef .tc (Pipeline.arrRef cfg.spec o)) x (Pipeline.arrRef cfg.spec w) := by
  by_cases h : w = o
  · subst h hx; exact (Function.update_self _ _ Vi).symm
  · exact ((dat.arrAt_in w (ho w h).1 _).trans (hA w)).trans (Function.update_of_ne (StableHlo.devRef_ne_of_ne (ho w h).2) _ _).symm

theorem rest_of_update {gr W : ℕ} (win : Fin W → Pipeline.WinSpec sig gr) (o : Fin W) (Vi : Valuation τ sig (Elt F)) (x)
    (b : Ref sig .tc) (hb : b ∉ Finset.univ.image (Pipeline.arrRef win)) :
    Function.update Vi (Proc.devRef .tc (Pipeline.arrRef win o)) x b = Vi b :=
  Function.update_of_ne (StableHlo.devRef_ne_of_ne fun h => hb (Finset.mem_image.mpr ⟨o, Finset.mem_univ _, h.symm⟩)) _ _

theorem outs_2 (c : Dev nD) : outs m 2 main_v4 c = (dat0 (W1 m) c).arrAt 2 cfg0.N := by
  show o2 m main_v4 c = _
  unfold o2
  exact Pipeline.withArrays_arr spec0 launch0.win.arr_inj c _ _ 2
theorem hF0 (c : Dev nD) (w : Fin cfg0.W) :
    (dat0 (W1 m) c).arrAt w cfg0.N = Gen.V2 m (outs m) c (Pipeline.arrRef spec0 w) :=
  arrAt_eq_update (dat0 (W1 m) c) (Gen.V1 m c) (A_eq0 _ c) 2 (by decide) _ (outs_2 m c) w
theorem hrest0 (c : Dev nD) : ∀ b, b ∉ Finset.univ.image (Pipeline.arrRef spec0) → Gen.V2 m (outs m) c b = Gen.V1 m c b :=
  rest_of_update spec0 2 _ _

theorem outs_4 (c : Dev nD) : outs m 4 main_v19 c = (dat1 (W3 m) c).arrAt 3 cfg1.N := by
  show o4 m main_v19 c = _
  unfold o4
  exact Pipeline.withArrays_arr spec1 launch1.win.arr_inj c _ _ 3
theorem hF1 (c : Dev nD) (w : Fin cfg1.W) :
    (dat1 (W3 m) c).arrAt w cfg1.N = Gen.V4 m (outs m) c (Pipeline.arrRef spec1 w) :=
  arrAt_eq_update (dat1 (W3 m) c) (Gen.V3 m (outs m) c) (A_eq1 _ c) 3 (by decide) _ (outs_4 m c) w
theorem hrest1 (c : Dev nD) : ∀ b, b ∉ Finset.univ.image (Pipeline.arrRef spec1) → Gen.V4 m (outs m) c b = Gen.V3 m (outs m) c b :=
  rest_of_update spec1 3 _ _

theorem outs_6 (c : Dev nD) : outs m 6 main_v34 c = (dat2 (W5 m) c).arrAt 3 cfg2.N := by
  show o6 m main_v34 c = _
  unfold o6
  exact Pipeline.withArrays_arr spec2 launch2.win.arr_inj c _ _ 3
theorem hF2 (c : Dev nD) (w : Fin cfg2.W) :
    (dat2 (W5 m) c).arrAt w cfg2.N = Gen.V6 m (outs m) c (Pipeline.arrRef spec2 w) :=
  arrAt_eq_update (dat2 (W5 m) c) (Gen.V5 m (outs m) c) (A_eq2 _ c) 3 (by decide) _ (outs_6 m c) w
theorem hrest2 (c : Dev nD) : ∀ b, b ∉ Finset.univ.image (Pipeline.arrRef spec2) → Gen.V6 m (outs m) c b = Gen.V5 m (outs m) c b :=
  rest_of_update spec2 3 _ _

theorem outs_8 (c : Dev nD) : outs m 8 main_v49 c = (dat3 (W7 m) c).arrAt 2 cfg3.N := by
  show o8 m main_v49 c = _
  unfold o8
  exact Pipeline.withArrays_arr spec3 launch3.win.arr_inj c _ _ 2
theorem hF3 (c : Dev nD) (w : Fin cfg3.W) :
    (dat3 (W7 m) c).arrAt w cfg3.N = Gen.V8 m (outs m) c (Pipeline.arrRef spec3 w) :=
  arrAt_eq_update (dat3 (W7 m) c) (Gen.V7 m (outs m) c) (A_eq3 _ c) 2 (by decide) _ (outs_8 m c) w
theorem hrest3 (c : Dev nD) : ∀ b, b ∉ Finset.univ.image (Pipeline.arrRef spec3) → Gen.V8 m (outs m) c b = Gen.V7 m (outs m) c b :=
  rest_of_update spec3 2 _ _

theorem outs_12 (c : Dev nD) : outs m 12 main_v60 c = (dat4 (W11 m) c).arrAt 2 cfg4.N := by
  show o12 m main_v60 c = _
  unfold o12
  exact Pipeline.withArrays_arr spec4 launch4.win.arr_inj c _ _ 2
theorem hF4 (c : Dev nD) (w : Fin cfg4.W) :
    (dat4 (W11 m) c).arrAt w cfg4.N = Gen.V12 m (outs m) c (Pipeline.arrRef spec4 w) :=
  arrAt_eq_update (dat4 (W11 m) c) (Gen.V11 m (outs m) c) (A_eq4 _ c) 2 (by decide) _ (outs_12 m c) w
theorem hrest4 (c : Dev nD) : ∀ b, b ∉ Finset.univ.image (Pipeline.arrRef spec4) → Gen.V12 m (outs m) c b = Gen.V11 m (outs m) c b :=
  rest_of_update spec4 2 _ _

theorem outs_14 (c : Dev nD) : outs m 14 main_v64 c = (dat5 (W13 m) c).arrAt 7 cfg5.N := by
  show o14 m main_v64 c = _
  unfold o14
  exact Pipeline.withArrays_arr spec5 launch5.win.arr_inj c _ _ 7
theorem hF5 (c : Dev nD) (w : Fin cfg5.W) :
    (dat5 (W13 m) c).arrAt w cfg5.N = Gen.V14 m (outs m) c (Pipeline.arrRef spec5 w) :=
  arrAt_eq_update (dat5 (W13 m) c) (Gen.V13 m (outs m) c) (A_eq5 _ c) 7 (by decide) _ (outs_14 m c) w
theorem hrest5 (c : Dev nD) : ∀ b, b ∉ Finset.univ.image (Pipeline.arrRef spec5) → Gen.V14 m (outs m) c b = Gen.V13 m (outs m) c b :=
  rest_of_update spec5 7 _ _

def pdats : (p : Fin 6) → (c : Dev nD) → Dat τ (Elt F) Unit ℕ (UR sig nD τ) ℕ (cfgs p) c
  | ⟨0, _⟩ => fun c => dat0 (W1 m) c
  | ⟨1, _⟩ => fun c => dat1 (W3 m) c
  | ⟨2, _⟩ => fun c => dat2 (W5 m) c
  | ⟨3, _⟩ => fun c => dat3 (W7 m) c
  | ⟨4, _⟩ => fun c => dat4 (W11 m) c
  | ⟨5, _⟩ => fun c => dat5 (W13 m) c

end Cert.Kernel.Hand

end
-- ==== Proof.KB.Segs.lean ====
import proofs.«407319_j12446815224334_1_alg».proof.Proof.KB.Fold
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region whose body owes nothing and whose invariant at both ends is the core's untouched rest, entered at `Vi` and left at `Vo`. -/
def regOf (p : Fin 6) (hl : Pipeline.LaunchFacts (nD := nD) (τ := τ) cfgs p) (Vi Vo : Dev nD → Valuation τ sig (Elt F))
    (hb : ∀ c, BodyObligation (pdats m p c) (defs₀ (F := F)) 𝒱₀ () Set.univ)
    (howed : ∀ c t, (pdats m p c).owed t = 0) (hrec : ∀ c, (pdats m p c).recorded 0 = Set.univ) (hq : ∀ c w, (pdats m p c).q w = fullShare)
    (hA : ∀ c w, (pdats m p c).A w = Vi c (Pipeline.arrRef (cfgs p).spec w))
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hF : ∀ c w, (pdats m p c).arrAt w (cfgs p).N = Vo c (Pipeline.arrRef (cfgs p).spec w))
    (hrest : ∀ c, ∀ b, b ∉ Finset.univ.image (Pipeline.arrRef (cfgs p).spec) → Vo c b = Vi c b) :
    Pipeline.RegionSeg (pcfgs (F := F)) Gen.adm (pdats m) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) Gen.adm (pdats m) hl.win hl.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    have h := hΦ0 c
    unfold Pipeline.ΦA at h
    iintro ⟨Hp, -, Hr⟩
    iapply h
    isplitl [Hr]; · iexact Hr
    iexact Hp
  hout c := by
    rw [Pipeline.ownSems0_none]
    have h := hΦN c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      hl.win hl.arr_whole c (pdats m) ((pdats m p c).share_full (hq c))
      (fun b => Vi c b) (fun b => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := regOf m 0 launch0 (Gen.V1 m) (Gen.V2 m (outs m)) (body_obligation0 (W1 m)) (owed_eq0 (W1 m)) (fun _ => rfl) (q_eq0 (W1 m)) (A_eq0 (W1 m)) (hin0 (W1 m)) (hout0 (W1 m)) (hF0 m) (hrest0 m)
def reg1 := regOf m 1 launch1 (Gen.V3 m (outs m)) (Gen.V4 m (outs m)) (body_obligation1 (W3 m)) (owed_eq1 (W3 m)) (fun _ => rfl) (q_eq1 (W3 m)) (A_eq1 (W3 m)) (hin1 (W3 m)) (hout1 (W3 m)) (hF1 m) (hrest1 m)
def reg2 := regOf m 2 launch2 (Gen.V5 m (outs m)) (Gen.V6 m (outs m)) (body_obligation2 (W5 m)) (owed_eq2 (W5 m)) (fun _ => rfl) (q_eq2 (W5 m)) (A_eq2 (W5 m)) (hin2 (W5 m)) (hout2 (W5 m)) (hF2 m) (hrest2 m)
def reg3 := regOf m 3 launch3 (Gen.V7 m (outs m)) (Gen.V8 m (outs m)) (body_obligation3 (W7 m)) (owed_eq3 (W7 m)) (fun _ => rfl) (q_eq3 (W7 m)) (A_eq3 (W7 m)) (hin3 (W7 m)) (hout3 (W7 m)) (hF3 m) (hrest3 m)
def reg4 := regOf m 4 launch4 (Gen.V11 m (outs m)) (Gen.V12 m (outs m)) (body_obligation4 (W11 m)) (owed_eq4 (W11 m)) (fun _ => rfl) (q_eq4 (W11 m)) (A_eq4 (W11 m)) (hin4 (W11 m)) (hout4 (W11 m)) (hF4 m) (hrest4 m)
def reg5 := regOf m 5 launch5 (Gen.V13 m (outs m)) (Gen.V14 m (outs m)) (body_obligation5 (W13 m)) (owed_eq5 (W13 m)) (fun _ => rfl) (q_eq5 (W13 m)) (A_eq5 (W13 m)) (hin5 (W13 m)) (hout5 (W13 m)) (hF5 m) (hrest5 m)

abbrev u₀ : UR sig nD τ := initOf (Pipeline.cells cfgs cellOf_inj) (Pipeline.launchToks cfgs cellOf_inj)

theorem hu₀ : (ownU (u₀) : sProp 𝕄) ⊢ |={Set.univ}=> iprop(BI.own ((emb₁ : Emb (URounds (GSem nD τ sig) Unit) 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE6 (c : Dev nD) : E (F := F) 6 c ⊢ (iprop(∃ W, owes (c : Thread nD τ) (0 : CellTallies nD τ sig Unit) W) : sProp 𝕄) := by
  iintro ⟨-, HO⟩; iexact HO

set_option backward.isDefEq.respectTransparency.types false in
/-- Every weakly fair execution ends; the result array holds what the last region leaves and each argument is as launched. -/
theorem run (ρ : Dev nD → PrngReg) : θ_run defs (onTc (τ := τ) (main (F := F))) ⟨m, fun _ => 0, ρ⟩ (fun r => ∀ c : Dev nD,
      r.2.mem ((c.tc : Thread nD τ).loc main_v64) = outs m 14 main_v64 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m) (reg3 m) (reg4 m) (reg5 m))
    (fun c Q => by
      rewrite [main_chain c, Pipeline.Seg.run_eq_chain,
        show (Gen.segs m (outs m) 𝒱₀ L lv E () (pdats m) (reg0 m) (reg1 m) (reg2 m) (reg3 m) (reg4 m) (reg5 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp)) (u₀ := u₀) (hu₀ := hu₀)
    (T₀ := fun c => iprop(StableHlo.held (c : Thread nD τ) (Pipeline.ucRefs τ sig) (Gen.V0 m c) ∗ R c))
    (Tₙ := fun c => StableHlo.held (c : Thread nD τ) (Pipeline.ucRefs τ sig) (Gen.V14 m (outs m) c))
    (hch := fun c => ⟨.rfl, .rfl, .rfl, .rfl, .rfl, .rfl, .rfl, .rfl, .rfl, .rfl, .rfl, .rfl, .rfl, .rfl, sep_mono .rfl (hE6 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V14 m (outs m) c b)
    (hfin := fun c s' => by
      iintro ⟨Hh, HSI⟩
      unfold StableHlo.held
      imodintro
      iapply (pointsTo_read_all (Pipeline.ucRefs τ sig) (fun b => (((c : Thread nD τ)).1, b)) (Gen.V14 m (outs m) c) s')
      isplitl [Hh] <;> iassumption)
    (hQ := fun s h c =>
      ⟨(h c _ (mem_uc main_v64 (by decide))).trans (Function.update_self (β := fun b : DevRef τ sig => Buf (Elt F) ((c : Thread nD τ).1, b)) _ _ _),
       (h c _ (mem_uc main_arg0 (by decide))).trans (Gen.V14_main_arg0 m (outs m) c),
       (h c _ (mem_uc main_arg1 (by decide))).trans (Gen.V14_main_arg1 m (outs m) c),
       (h c _ (mem_uc main_arg2 (by decide))).trans (Gen.V14_main_arg2 m (outs m) c),
       (h c _ (mem_uc main_arg3 (by decide))).trans (Gen.V14_main_arg3 m (outs m) c),
       (h c _ (mem_uc main_arg4 (by decide))).trans (Gen.V14_main_arg4 m (outs m) c),
       (h c _ (mem_uc main_arg5 (by decide))).trans (Gen.V14_main_arg5 m (outs m) c),
       (h c _ (mem_uc main_arg6 (by decide))).trans (Gen.V14_main_arg6 m (outs m) c),
       (h c _ (mem_uc main_arg7 (by decide))).trans (Gen.V14_main_arg7 m (outs m) c),
       (h c _ (mem_uc main_arg8 (by decide))).trans (Gen.V14_main_arg8 m (outs m) c),
       (h c _ (mem_uc main_arg9 (by decide))).trans (Gen.V14_main_arg9 m (outs m) c),
       (h c _ (mem_uc main_arg10 (by decide))).trans (Gen.V14_main_arg10 m (outs m) c),
       (h c _ (mem_uc main_arg11 (by decide))).trans (Gen.V14_main_arg11 m (outs m) c),
       (h c _ (mem_uc main_arg12 (by decide))).trans (Gen.V14_main_arg12 m (outs m) c),
       (h c _ (mem_uc main_arg13 (by decide))).trans (Gen.V14_main_arg13 m (outs m) c),
       (h c _ (mem_uc main_arg14 (by decide))).trans (Gen.V14_main_arg14 m (outs m) c),
       (h c _ (mem_uc main_arg15 (by decide))).trans (Gen.V14_main_arg15 m (outs m) c)⟩)

end Cert.Kernel.Hand

end
-- ==== Proof.KI.Reg0.lean ====
import proofs.«407319_j12446815224334_1_alg».proof.Proof.Gen.KernelIdeal.Launch
import proofs.«407319_j12446815224334_1_alg».proof.Proof.Gen.KernelIdeal.Skeleton
import proofs.«407319_j12446815224334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x64 := Rect.unit (s := S10000x64) ![0, 0] S10000x64.size inb_S10000x64_S10000x64_0_0
abbrev r0_w : Rect S64x64 := Rect.unit (s := S64x64) ![0, 0] S64x64.size inb_S64x64_S64x64_0_0

/-- The output block as a function of the input blocks: the body's one payload, stored over the whole block. -/
def out0_2 (x0 : Vec F S10000x64 .f32) (x1 : Vec F S64x64 .f32) : Vec F S10000x64 .f32 :=
  View.canon [⟨r0_x, k0_pay1 (View.ld x0 r0_x) (View.ld x1 r0_w)⟩]

theorem cover0_2 (p0 : Vec F S10000x64 .f32) (y : S10000x64.Idx) :
    ∃ pc ∈ ([⟨r0_x, p0⟩] : List (View.Piece (Elt F) S10000x64 .f32)), y ∈ pc.1.set :=
  View.cover_of_tiled [⟨r0_x, p0⟩] S10000x64.size (by rfl) y

set_option maxHeartbeats 1000000 in

theorem sound_kernel0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Region0

end Cert.KernelIdeal.Hand

end
-- ==== Proof.KI.Reg1.lean ====
import proofs.«407319_j12446815224334_1_alg».proof.Proof.Gen.KernelIdeal.Launch
import proofs.«407319_j12446815224334_1_alg».proof.Proof.Gen.KernelIdeal.Skeleton
import proofs.«407319_j12446815224334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rAgg1 : Rect S10000x64 := Rect.unit (s := S10000x64) ![0, 0] S10000x64.size inb_S10000x64_S10000x64_0_0
abbrev rBias1 : Rect S1x64 := Rect.unit (s := S1x64) ![0, 0] S1x64.size inb_S1x64_S1x64_0_0
abbrev rW1 : Rect S64x64 := Rect.unit (s := S64x64) ![0, 0] S64x64.size inb_S64x64_S64x64_0_0

/-- The output block as a function of the input blocks: the body's one payload, stored over the whole block. -/
def out1_3 (x0 : Vec F S10000x64 .f32) (x1 : Vec F S1x64 .f32) (x2 : Vec F S64x64 .f32) : Vec F S10000x64 .f32 :=
  View.canon [⟨rAgg1, k1_pay1 (View.ld x0 rAgg1) (View.ld x1 rBias1) (View.ld x2 rW1)⟩]

theorem cover1_3 (p0 : Vec F S10000x64 .f32) (y : S10000x64.Idx) :
    ∃ pc ∈ ([⟨rAgg1, p0⟩] : List (View.Piece (Elt F) S10000x64 .f32)), y ∈ pc.1.set :=
  View.cover_of_tiled [⟨rAgg1, p0⟩] S10000x64.size (by rfl) y

set_option maxHeartbeats 1000000 in

theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.KernelIdeal.Hand

end
-- ==== Proof.KI.Reg2.lean ====
import proofs.«407319_j12446815224334_1_alg».proof.Proof.Gen.KernelIdeal.Launch
import proofs.«407319_j12446815224334_1_alg».proof.Proof.Gen.KernelIdeal.Skeleton
import proofs.«407319_j12446815224334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rAgg2 : Rect S10000x64 := Rect.unit (s := S10000x64) ![0, 0] S10000x64.size inb_S10000x64_S10000x64_0_0
abbrev rBias2 : Rect S1x64 := Rect.unit (s := S1x64) ![0, 0] S1x64.size inb_S1x64_S1x64_0_0
abbrev rW2 : Rect S64x64 := Rect.unit (s := S64x64) ![0, 0] S64x64.size inb_S64x64_S64x64_0_0

/-- The output block as a function of the input blocks: the body's one payload, stored over the whole block. -/
def out2_3 (x0 : Vec F S10000x64 .f32) (x1 : Vec F S1x64 .f32) (x2 : Vec F S64x64 .f32) : Vec F S10000x64 .f32 :=
  View.canon [⟨rAgg2, k2_pay1 (View.ld x0 rAgg2) (View.ld x1 rBias2) (View.ld x2 rW2)⟩]

theorem cover2_3 (p0 : Vec F S10000x64 .f32) (y : S10000x64.Idx) :
    ∃ pc ∈ ([⟨rAgg2, p0⟩] : List (View.Piece (Elt F) S10000x64 .f32)), y ∈ pc.1.set :=
  View.cover_of_tiled [⟨rAgg2, p0⟩] S10000x64.size (by rfl) y

set_option maxHeartbeats 1000000 in

theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__relu_bias_matmul_kernel i arg1 harg1 arg2 harg2 arg3 harg3 arg4 harg4) K := by
  simp only [cc2__relu_bias_matmul_kernel_eq_skeleton]; unfold cc2__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KI.Reg3.lean ====
import proofs.«407319_j12446815224334_1_alg».proof.Proof.Gen.KernelIdeal.Launch
import proofs.«407319_j12446815224334_1_alg».proof.Proof.Gen.KernelIdeal.Skeleton
import proofs.«407319_j12446815224334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0

/-- The output block as a function of the input blocks: the body's one payload, stored over the whole block. -/
def out3_2 (x0 : Vec F S10000x64 .f32) (x1 : Vec F S1x64 .f32) : Vec F S10000x64 .f32 :=
  View.canon [⟨r3_0, k3_pay1 (View.ld x0 r3_0) (View.ld x1 r3_1)⟩]

theorem cover3_2 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in

theorem sound_kernel3 (c : Dev nD) (E : Set ℕ) (i : grid3.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__relu_bias_kernel i arg1 harg1 arg2 harg2 arg3 harg3) K := by
  simp only [cc3__relu_bias_kernel_eq_skeleton]; unfold cc3__relu_bias_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KI.Reg4.lean ====
import proofs.«407319_j12446815224334_1_alg».proof.Proof.Gen.KernelIdeal.Launch
import proofs.«407319_j12446815224334_1_alg».proof.Proof.Gen.KernelIdeal.Skeleton
import proofs.«407319_j12446815224334_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel

theorem liveAt4_2 : ∀ t : Fin cfg4.N, cond4_1 (grid4.coords t) → cfg4.idle 2 (grid4.coords t) = false := by decide +kernel

theorem off_zero4 : (![0, 0] : Fin 2 → ℕ) = fun _ => 0 := by
  funext a; fin_cases a <;> rfl

/-- After stores whose last is over the whole shape the contents read as that store's payload. -/
theorem read_writes_last_unit4 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

section Kernel
variable (c : Dev nD) (E : Set ℕ) (i : grid4.Coords)
    (arg1 : Memref sig .tc .vmem S64x5120 .f32) (harg1 : arg1.IsWhole) (arg2 : Memref sig .tc .vmem S5120x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole)

set_option maxHeartbeats 1000000 in

theorem kernel4_first (hc0 : cond4_0 i) (hc1 : ¬cond4_1 i)
    (x0 : Vec F S64x5120 .f32) (x1 : Vec F S5120x64 .f32) (xi2 : Vec F S64x64 .f32) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k4_pay4 x0 x1 (k4_pay1 (F := F)))
            ∗ owns (c : Thread nD τ) arg5 fullShare (k4_pay5 x0 (k4_pay2 (F := F)))) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0] <;> (iexists _; isplitr; swap)
  · iexact HS0
  rotate_left
  · iexact HS1
  all_goals
    ipureintro
    sl_unfold_run_names
    rw [read_writes_last_unit4 _ _ off_zero4]
    simp only [View.readAt_eq_ld, View.ld_unit_zero (S := S64x5120) off_zero4, View.ld_unit_zero (S := S5120x64) off_zero4, View.ld_unit_zero (S := S64x64) off_zero4, View.ld_unit_zero (S := S64x1) off_zero4, View.readCov_unit_zero (S := S64x64) _ off_zero4, View.readCov_unit_zero (S := S64x1) _ off_zero4]

set_option maxHeartbeats 1000000 in

theorem kernel4_mid (hc0 : ¬cond4_0 i) (hc1 : ¬cond4_1 i)
    (x0 : Vec F S64x5120 .f32) (x1 : Vec F S5120x64 .f32) (xi2 : Vec F S64x64 .f32) (xs0 : Vec F S64x64 .f32) (xs1 : Vec F S64x1 .f32)
    (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare xi2
            ∗ owns (c : Thread nD τ) arg4 fullShare (k4_pay4 x0 x1 xs0)
            ∗ owns (c : Thread nD τ) arg5 fullShare (k4_pay5 x0 xs1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0] <;> (iexists _; isplitr; swap)
  · iexact HS0
  rotate_left
  · iexact HS1
  all_goals
    ipureintro
    sl_unfold_run_names
    rw [read_writes_last_unit4 _ _ off_zero4]
    simp only [View.readAt_eq_ld, View.ld_unit_zero (S := S64x5120) off_zero4, View.ld_unit_zero (S := S5120x64) off_zero4, View.ld_unit_zero (S := S64x64) off_zero4, View.ld_unit_zero (S := S64x1) off_zero4, View.readCov_unit_zero (S := S64x64) _ off_zero4, View.readCov_unit_zero (S := S64x1) _ off_zero4]

set_option maxHeartbeats 1000000 in

theorem kernel4_last (hc0 : ¬cond4_0 i) (hc1 : cond4_1 i)
    (x0 : Vec F S64x5120 .f32) (x1 : Vec F S5120x64 .f32) (xs0 : Vec F S64x64 .f32) (xs1 : Vec F S64x1 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k4_pay6 (k4_pay4 x0 x1 xs0) (k4_pay5 x0 xs1))
            ∗ owns (c : Thread nD τ) arg4 fullShare (k4_pay4 x0 x1 xs0)
            ∗ owns (c : Thread nD τ) arg5 fullShare (k4_pay5 x0 xs1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  rotate_left
  isplitl [HS0]
  all_goals (iexists _; isplitr; swap)
  · iexact HS0
  rotate_left
  · iexact HS1
  rotate_left
  · iexact H2
  all_goals
    ipureintro
    sl_unfold_run_names
    rw [read_writes_last_unit4 _ _ off_zero4]
    simp only [View.readAt_eq_ld, View.ld_unit_zero (S := S64x5120) off_zero4, View.ld_unit_zero (S := S5120x64) off_zero4, View.ld_unit_zero (S := S64x64) off_zero4, View.ld_unit_zero (S := S64x1) off_zero4, View.readCov_unit_zero (S := S64x64) _ off_zero4, View.readCov_unit_zero (S := S64x1) _ off_zero4]

end Kernel

section Region
variable (V : (c : Dev nD) → (b : Ref sig .tc) → Buf (Elt F) ((c : Thread nD τ).loc b))

/-- Window w's block at grid point t, read off the array the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ohblk (c : Dev nD) (t : Fin cfg4.N) : Vec F S64x5120 .f32 := iblk4 V c 0 t

abbrev hblk (c : Dev nD) (t : Fin cfg4.N) : Vec F S5120x64 .f32 := iblk4 V c 1 t

/-- The 64 × 64 accumulator after point n: the zero fill updated by the product payload once per point 0 … n. -/
def acc0At (c : Dev nD) : (n : ℕ) → n < cfg4.N → Vec F S64x64 .f32
  | 0, hn => k4_pay4 (ohblk V c ⟨0, hn⟩) (hblk V c ⟨0, hn⟩) (k4_pay1 (F := F))
  | n + 1, hn => k4_pay4 (ohblk V c ⟨n + 1, hn⟩) (hblk V c ⟨n + 1, hn⟩) (acc0At c n (Nat.lt_of_succ_lt hn))

/-- The 64 × 1 accumulator of row sums after point n, likewise. -/
def acc1At (c : Dev nD) : (n : ℕ) → n < cfg4.N → Vec F S64x1 .f32
  | 0, hn => k4_pay5 (ohblk V c ⟨0, hn⟩) (k4_pay2 (F := F))
  | n + 1, hn => k4_pay5 (ohblk V c ⟨n + 1, hn⟩) (acc1At c n (Nat.lt_of_succ_lt hn))

theorem acc0At_first (c : Dev nD) (t : Fin cfg4.N) (hz : t.val = 0) :
    acc0At V c t.val t.isLt = k4_pay4 (ohblk V c t) (hblk V c t) (k4_pay1 (F := F)) := by
  obtain ⟨n, hn⟩ := t; subst hz; rfl
theorem acc1At_first (c : Dev nD) (t : Fin cfg4.N) (hz : t.val = 0) :
    acc1At V c t.val t.isLt = k4_pay5 (ohblk V c t) (k4_pay2 (F := F)) := by
  obtain ⟨n, hn⟩ := t; subst hz; rfl

theorem acc0At_pos (c : Dev nD) (t : Fin cfg4.N) (hz : t.val ≠ 0) :
    acc0At V c t.val t.isLt = k4_pay4 (ohblk V c t) (hblk V c t) (acc0At V c (t.val - 1) (Nat.lt_of_le_of_lt (Nat.sub_le _ _) t.isLt)) := by
  obtain ⟨n, hn⟩ := t
  cases n with
  | zero => exact absurd rfl hz
  | succ n => rfl
theorem acc1At_pos (c : Dev nD) (t : Fin cfg4.N) (hz : t.val ≠ 0) :
    acc1At V c t.val t.isLt = k4_pay5 (ohblk V c t) (acc1At V c (t.val - 1) (Nat.lt_of_le_of_lt (Nat.sub_le _ _) t.isLt)) := by
  obtain ⟨n, hn⟩ := t
  cases n with
  | zero => exact absurd rfl hz
  | succ n => rfl

abbrev scM4_0 : Memref sig .tc .vmem S64x64 .f32 := Memref.whole cc4_scratch0
abbrev scM4_1 : Memref sig .tc .vmem S64x1 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The invariant before point n: at n = 0 the entry invariant, later both accumulators at what point n - 1 left. -/
def PhiS4 (c : Dev nD) : (n : ℕ) → n ≤ cfg4.N → sProp 𝕄
  | 0, _ => Pipeline.ΦA spec4 c
  | n + 1, hn => iprop(iprop(iprop(owns (c : Thread nD τ) scM4_0 fullShare (acc0At V c n hn) ∗ owns (c : Thread nD τ) scM4_1 fullShare (acc1At V c n hn))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare (acc0At V c n hn) ∗ owns (c : Thread nD τ) scM4_1 fullShare (acc1At V c n hn))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare (acc0At V c (n - 1) (by omega)) ∗ owns (c : Thread nD τ) scM4_1 fullShare (acc1At V c (n - 1) (by omega)))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay6 (acc0At V c t.val t.isLt) (acc1At V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := rfl
theorem after4_1 (c : Dev nD) (t : Fin cfg4.N) : (dat4 V c).after 1 t = iblk4 V c 1 t := rfl

theorem after4_2 (c : Dev nD) (t : Fin cfg4.N) :
    (dat4 V c).after 2 t = k4_pay6 (acc0At V c t.val t.isLt) (acc1At V c t.val t.isLt) := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases hz : t.val = 0
  · have hc0 : cond4_0 (grid4.coords t) := (hcond4_0 t).mpr hz
    have hc1 : ¬cond4_1 (grid4.coords t) := fun h => by have := (hcond4_1 t).mp h; omega
    rw [Dat.leavesExact_idle (dat4 V c) 2 t (idleAt4_2 t hc1) (noFlush4_2 t hc1)]
    rw [acc0At_first V c t hz, acc1At_first V c t hz]
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩⟩
    iapply (kernel4_first c Set.univ (grid4.coords t) _ _ _ _ _ _ _ _ _ _ hc0 hc1 (ohblk V c t) (hblk V c t) ((dat4 V c).before 2 t d2) _)
    iframe
    iintro ⟨H0, H1, H2, HS0, HS1⟩
    iframe
    iexists _; iexact H2
  · by_cases h9 : t.val = 9
    · have hc0 : ¬cond4_0 (grid4.coords t) := fun h => hz ((hcond4_0 t).mp h)
      have hc1 : cond4_1 (grid4.coords t) := (hcond4_1 t).mpr h9
      rw [show (dat4 V c).leavesExact 2 t = owns (c : Thread nD τ) (st4_2 t) fullShare ((dat4 V c).after 2 t) from by
        unfold Dat.leavesExact; rw [liveAt4_2 t hc1], after4_2]
      rw [acc0At_pos V c t hz, acc1At_pos V c t hz]
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply (kernel4_last c Set.univ (grid4.coords t) _ _ _ _ _ _ _ _ _ _ hc0 hc1 (ohblk V c t) (hblk V c t) _ _ _)
      iframe
      isplitl [H2]; · iexists _; iexact H2
      iintro ⟨H0, H1, H2, HS0, HS1⟩
      iframe
    · have hc0 : ¬cond4_0 (grid4.coords t) := fun h => hz ((hcond4_0 t).mp h)
      have hc1 : ¬cond4_1 (grid4.coords t) := fun h => h9 ((hcond4_1 t).mp h)
      rw [Dat.leavesExact_idle (dat4 V c) 2 t (idleAt4_2 t hc1) (noFlush4_2 t hc1)]
      rw [acc0At_pos V c t hz, acc1At_pos V c t hz]
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply (kernel4_mid c Set.univ (grid4.coords t) _ _ _ _ _ _ _ _ _ _ hc0 hc1 (ohblk V c t) (hblk V c t) ((dat4 V c).before 2 t d2) _ _ _)
      iframe
      iintro ⟨H0, H1, H2, HS0, HS1⟩
      iframe
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 10 := N_4; omega)

end Region

end Cert.KernelIdeal.Hand

end
-- ==== Proof.KI.Reg5.lean ====
import proofs.«407319_j12446815224334_1_alg».proof.Proof.Gen.KernelIdeal.Launch
import proofs.«407319_j12446815224334_1_alg».proof.Proof.Gen.KernelIdeal.Skeleton
import proofs.«407319_j12446815224334_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

/-- Window w's block at grid point t, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S64x64 := Rect.unit (s := S64x64) ![0, 0] S64x64.size inb_S64x64_S64x64_0_0
abbrev r5_1 : Rect S64x32 := Rect.unit (s := S64x32) ![0, 0] S64x32.size inb_S64x32_S64x32_0_0
abbrev r5_2 : Rect S1x32 := Rect.unit (s := S1x32) ![0, 0] S1x32.size inb_S1x32_S1x32_0_0
abbrev r5_3 : Rect S32x16 := Rect.unit (s := S32x16) ![0, 0] S32x16.size inb_S32x16_S32x16_0_0
abbrev r5_4 : Rect S1x16 := Rect.unit (s := S1x16) ![0, 0] S1x16.size inb_S1x16_S1x16_0_0
abbrev r5_5 : Rect S16x1 := Rect.unit (s := S16x1) ![0, 0] S16x1.size inb_S16x1_S16x1_0_0
abbrev r5_6 : Rect S1x1 := Rect.unit (s := S1x1) ![0, 0] S1x1.size inb_S1x1_S1x1_0_0
abbrev r5_7 : Rect S64x1 := Rect.unit (s := S64x1) ![0, 0] S64x1.size inb_S64x1_S64x1_0_0

/-- The output block as a function of the input blocks: the body's one payload, stored over the whole block. -/
def out5_7 (x0 : Vec F S64x64 .f32) (x1 : Vec F S64x32 .f32) (x2 : Vec F S1x32 .f32) (x3 : Vec F S32x16 .f32) (x4 : Vec F S1x16 .f32) (x5 : Vec F S16x1 .f32) (x6 : Vec F S1x1 .f32) : Vec F S64x1 .f32 :=
  View.canon [⟨r5_7, k5_pay1 (View.ld x0 r5_0) (View.ld x1 r5_1) (View.ld x2 r5_2) (View.ld x3 r5_3) (View.ld x4 r5_4) (View.ld x5 r5_5) (View.ld x6 r5_6)⟩]

theorem cover5_7 (p0 : Vec F S64x1 .f32) (y : S64x1.Idx) :
    ∃ pc ∈ ([⟨r5_7, p0⟩] : List (View.Piece (Elt F) S64x1 .f32)), y ∈ pc.1.set :=
  View.cover_of_tiled [⟨r5_7, p0⟩] S64x1.size (by rfl) y

set_option maxHeartbeats 1000000 in

theorem sound_kernel5 (c : Dev nD) (E : Set ℕ) (i : grid5.Coords) (arg1 : Memref sig .tc .vmem S64x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S1x1 .f32) (harg7 : arg7.IsWhole) (arg8 : Memref sig .tc .vmem S64x1 .f32) (harg8 : arg8.IsWhole)
    (x0 : Vec F S64x64 .f32) (x1 : Vec F S64x32 .f32) (x2 : Vec F S1x32 .f32) (x3 : Vec F S32x16 .f32) (x4 : Vec F S1x16 .f32) (x5 : Vec F S16x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__mlp_kernel i arg1 harg1 arg2 harg2 arg3 harg3 arg4 harg4 arg5 harg5 arg6 harg6 arg7 harg7 arg8 harg8) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := rfl
theorem q_eq5 (c : Dev nD) (w : Fin cfg5.W) : (dat5 V c).q w = fullShare := rfl
theorem owed_eq5 (c : Dev nD) (t : Fin (cfg5.N + 1)) : (dat5 V c).owed t = 0 := rfl

theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) : (dat5 V c).after 3 t = iblk5 V c 3 t := rfl
theorem after5_4 (c : Dev nD) (t : Fin cfg5.N) : (dat5 V c).after 4 t = iblk5 V c 4 t := rfl
theorem after5_5 (c : Dev nD) (t : Fin cfg5.N) : (dat5 V c).after 5 t = iblk5 V c 5 t := rfl
theorem after5_6 (c : Dev nD) (t : Fin cfg5.N) : (dat5 V c).after 6 t = iblk5 V c 6 t := rfl
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 V c).before 6 t d = iblk5 V c 6 t :=
  ((dat5 V c).before_in_eq_fetched 6 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  iframe
  isplitl [H7]; · iexists _; iexact H7
  iintro ⟨H0, H1, H2, H3, H4, H5, H6, H7⟩
  iframe

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Region5

end Cert.KernelIdeal.Hand

end
-- ==== Proof.KI.Fold.lean ====
import proofs.«407319_j12446815224334_1_alg».proof.Proof.KI.Reg0
import proofs.«407319_j12446815224334_1_alg».proof.Proof.KI.Reg1
import proofs.«407319_j12446815224334_1_alg».proof.Proof.KI.Reg2
import proofs.«407319_j12446815224334_1_alg».proof.Proof.KI.Reg3
import proofs.«407319_j12446815224334_1_alg».proof.Proof.KI.Reg4
import proofs.«407319_j12446815224334_1_alg».proof.Proof.KI.Reg5
import proofs.«407319_j12446815224334_1_alg».proof.Proof.Gen.KernelIdeal.Regions
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.ShloMosaic.Pipeline (Dat Cfg)

variable {F : FTy → Type} [FloatOps F]

variable (m : (ℓ : Loc nD τ sig) → Buf (Elt F) ℓ)

abbrev At1 (c : Dev nD) : Valuation τ sig (Elt F) := Gen.V1 m c

def o2 (r : Ref sig .tc) (c : Dev nD) : Buf (Elt F) ((c : Thread nD τ).loc r) :=
  Pipeline.withArrays spec0 c (At1 m c) (fun w => (dat0 (fun c b => At1 m c b) c).arrAt w cfg0.N) (Proc.devRef .tc r)

abbrev At2 (c : Dev nD) : Valuation τ sig (Elt F) := Function.update (At1 m c) main_v4 (o2 m main_v4 c)

abbrev At3 (c : Dev nD) : Valuation τ sig (Elt F) := StableHlo.after hostOps1 (At2 m c)

def o4 (r : Ref sig .tc) (c : Dev nD) : Buf (Elt F) ((c : Thread nD τ).loc r) :=
  Pipeline.withArrays spec1 c (At3 m c) (fun w => (dat1 (fun c b => At3 m c b) c).arrAt w cfg1.N) (Proc.devRef .tc r)

abbrev At4 (c : Dev nD) : Valuation τ sig (Elt F) := Function.update (At3 m c) main_v19 (o4 m main_v19 c)

abbrev At5 (c : Dev nD) : Valuation τ sig (Elt F) := StableHlo.after hostOps2 (At4 m c)

def o6 (r : Ref sig .tc) (c : Dev nD) : Buf (Elt F) ((c : Thread nD τ).loc r) :=
  Pipeline.withArrays spec2 c (At5 m c) (fun w => (dat2 (fun c b => At5 m c b) c).arrAt w cfg2.N) (Proc.devRef .tc r)

abbrev At6 (c : Dev nD) : Valuation τ sig (Elt F) := Function.update (At5 m c) main_v34 (o6 m main_v34 c)

abbrev At7 (c : Dev nD) : Valuation τ sig (Elt F) := StableHlo.after hostOps3 (At6 m c)

def o8 (r : Ref sig .tc) (c : Dev nD) : Buf (Elt F) ((c : Thread nD τ).loc r) :=
  Pipeline.withArrays spec3 c (At7 m c) (fun w => (dat3 (fun c b => At7 m c b) c).arrAt w cfg3.N) (Proc.devRef .tc r)

abbrev At8 (c : Dev nD) : Valuation τ sig (Elt F) := Function.update (At7 m c) main_v49 (o8 m main_v49 c)

abbrev At9 (c : Dev nD) : Valuation τ sig (Elt F) := StableHlo.after hostOps4 (At8 m c)

abbrev At10 (c : Dev nD) : Valuation τ sig (Elt F) := StableHlo.after hostOps4_1 (At9 m c)

abbrev At11 (c : Dev nD) : Valuation τ sig (Elt F) := StableHlo.after hostOps4_2 (At10 m c)

def o12 (r : Ref sig .tc) (c : Dev nD) : Buf (Elt F) ((c : Thread nD τ).loc r) :=
  Pipeline.withArrays spec4 c (At11 m c) (fun w => (dat4 (fun c b => At11 m c b) c).arrAt w cfg4.N) (Proc.devRef .tc r)

abbrev At12 (c : Dev nD) : Valuation τ sig (Elt F) := Function.update (At11 m c) main_v60 (o12 m main_v60 c)

abbrev At13 (c : Dev nD) : Valuation τ sig (Elt F) := StableHlo.after hostOps5 (At12 m c)

def o14 (r : Ref sig .tc) (c : Dev nD) : Buf (Elt F) ((c : Thread nD τ).loc r) :=
  Pipeline.withArrays spec5 c (At13 m c) (fun w => (dat5 (fun c b => At13 m c b) c).arrAt w cfg5.N) (Proc.devRef .tc r)

/-- What each region leaves in every buffer: its output array at the fold of the write-backs, the rest as entered. -/
def outs : Gen.Outs (F := F) := fun J => match J with
  | 2 => o2 m
  | 4 => o4 m
  | 6 => o6 m
  | 8 => o8 m
  | 12 => o12 m
  | 14 => o14 m
  | _ => fun r c => m ((c : Thread nD τ).loc r)

abbrev W1 (c : Dev nD) (b : Ref sig .tc) : Buf (Elt F) ((c : Thread nD τ).loc b) := Gen.V1 m c b
abbrev W3 (c : Dev nD) (b : Ref sig .tc) : Buf (Elt F) ((c : Thread nD τ).loc b) := Gen.V3 m (outs m) c b
abbrev W5 (c : Dev nD) (b : Ref sig .tc) : Buf (Elt F) ((c : Thread nD τ).loc b) := Gen.V5 m (outs m) c b
abbrev W7 (c : Dev nD) (b : Ref sig .tc) : Buf (Elt F) ((c : Thread nD τ).loc b) := Gen.V7 m (outs m) c b
abbrev W11 (c : Dev nD) (b : Ref sig .tc) : Buf (Elt F) ((c : Thread nD τ).loc b) := Gen.V11 m (outs m) c b
abbrev W13 (c : Dev nD) (b : Ref sig .tc) : Buf (Elt F) ((c : Thread nD τ).loc b) := Gen.V13 m (outs m) c b

theorem arrAt_eq_update {cfg : Cfg sig Λ₀} {c : Dev nD} (dat : Dat τ (Elt F) Unit ℕ (UR sig nD τ) ℕ cfg c)
    (Vi : Valuation τ sig (Elt F)) (hA : ∀ w, dat.A w = Vi (Pipeline.arrRef cfg.spec w)) (o : Fin cfg.W)
    (ho : ∀ w, w ≠ o → (cfg.win w).isOut = false ∧ Pipeline.arrRef cfg.spec w ≠ Pipeline.arrRef cfg.spec o)
    (x) (hx : x = dat.arrAt o cfg.N) (w : Fin cfg.W) :
    dat.arrAt w cfg.N = Function.update Vi (Proc.devRef .tc (Pipeline.arrRef cfg.spec o)) x (Pipeline.arrRef cfg.spec w) := by
  by_cases h : w = o
  · subst h hx; exact (Function.update_self _ _ Vi).symm
  · exact ((dat.arrAt_in w (ho w h).1 _).trans (hA w)).trans (Function.update_of_ne (StableHlo.devRef_ne_of_ne (ho w h).2) _ _).symm

theorem rest_of_update {gr W : ℕ} (win : Fin W → Pipeline.WinSpec sig gr) (o : Fin W) (Vi : Valuation τ sig (Elt F)) (x)
    (b : Ref sig .tc) (hb : b ∉ Finset.univ.image (Pipeline.arrRef win)) :
    Function.update Vi (Proc.devRef .tc (Pipeline.arrRef win o)) x b = Vi b :=
  Function.update_of_ne (StableHlo.devRef_ne_of_ne fun h => hb (Finset.mem_image.mpr ⟨o, Finset.mem_univ _, h.symm⟩)) _ _

theorem outs_2 (c : Dev nD) : outs m 2 main_v4 c = (dat0 (W1 m) c).arrAt 2 cfg0.N := by
  show o2 m main_v4 c = _
  unfold o2
  exact Pipeline.withArrays_arr spec0 launch0.win.arr_inj c _ _ 2
theorem hF0 (c : Dev nD) (w : Fin cfg0.W) :
    (dat0 (W1 m) c).arrAt w cfg0.N = Gen.V2 m (outs m) c (Pipeline.arrRef spec0 w) :=
  arrAt_eq_update (dat0 (W1 m) c) (Gen.V1 m c) (A_eq0 _ c) 2 (by decide) _ (outs_2 m c) w
theorem hrest0 (c : Dev nD) : ∀ b, b ∉ Finset.univ.image (Pipeline.arrRef spec0) → Gen.V2 m (outs m) c b = Gen.V1 m c b :=
  rest_of_update spec0 2 _ _

theorem outs_4 (c : Dev nD) : outs m 4 main_v19 c = (dat1 (W3 m) c).arrAt 3 cfg1.N := by
  show o4 m main_v19 c = _
  unfold o4
  exact Pipeline.withArrays_arr spec1 launch1.win.arr_inj c _ _ 3
theorem hF1 (c : Dev nD) (w : Fin cfg1.W) :
    (dat1 (W3 m) c).arrAt w cfg1.N = Gen.V4 m (outs m) c (Pipeline.arrRef spec1 w) :=
  arrAt_eq_update (dat1 (W3 m) c) (Gen.V3 m (outs m) c) (A_eq1 _ c) 3 (by decide) _ (outs_4 m c) w
theorem hrest1 (c : Dev nD) : ∀ b, b ∉ Finset.univ.image (Pipeline.arrRef spec1) → Gen.V4 m (outs m) c b = Gen.V3 m (outs m) c b :=
  rest_of_update spec1 3 _ _

theorem outs_6 (c : Dev nD) : outs m 6 main_v34 c = (dat2 (W5 m) c).arrAt 3 cfg2.N := by
  show o6 m main_v34 c = _
  unfold o6
  exact Pipeline.withArrays_arr spec2 launch2.win.arr_inj c _ _ 3
theorem hF2 (c : Dev nD) (w : Fin cfg2.W) :
    (dat2 (W5 m) c).arrAt w cfg2.N = Gen.V6 m (outs m) c (Pipeline.arrRef spec2 w) :=
  arrAt_eq_update (dat2 (W5 m) c) (Gen.V5 m (outs m) c) (A_eq2 _ c) 3 (by decide) _ (outs_6 m c) w
theorem hrest2 (c : Dev nD) : ∀ b, b ∉ Finset.univ.image (Pipeline.arrRef spec2) → Gen.V6 m (outs m) c b = Gen.V5 m (outs m) c b :=
  rest_of_update spec2 3 _ _

theorem outs_8 (c : Dev nD) : outs m 8 main_v49 c = (dat3 (W7 m) c).arrAt 2 cfg3.N := by
  show o8 m main_v49 c = _
  unfold o8
  exact Pipeline.withArrays_arr spec3 launch3.win.arr_inj c _ _ 2
theorem hF3 (c : Dev nD) (w : Fin cfg3.W) :
    (dat3 (W7 m) c).arrAt w cfg3.N = Gen.V8 m (outs m) c (Pipeline.arrRef spec3 w) :=
  arrAt_eq_update (dat3 (W7 m) c) (Gen.V7 m (outs m) c) (A_eq3 _ c) 2 (by decide) _ (outs_8 m c) w
theorem hrest3 (c : Dev nD) : ∀ b, b ∉ Finset.univ.image (Pipeline.arrRef spec3) → Gen.V8 m (outs m) c b = Gen.V7 m (outs m) c b :=
  rest_of_update spec3 2 _ _

theorem outs_12 (c : Dev nD) : outs m 12 main_v60 c = (dat4 (W11 m) c).arrAt 2 cfg4.N := by
  show o12 m main_v60 c = _
  unfold o12
  exact Pipeline.withArrays_arr spec4 launch4.win.arr_inj c _ _ 2
theorem hF4 (c : Dev nD) (w : Fin cfg4.W) :
    (dat4 (W11 m) c).arrAt w cfg4.N = Gen.V12 m (outs m) c (Pipeline.arrRef spec4 w) :=
  arrAt_eq_update (dat4 (W11 m) c) (Gen.V11 m (outs m) c) (A_eq4 _ c) 2 (by decide) _ (outs_12 m c) w
theorem hrest4 (c : Dev nD) : ∀ b, b ∉ Finset.univ.image (Pipeline.arrRef spec4) → Gen.V12 m (outs m) c b = Gen.V11 m (outs m) c b :=
  rest_of_update spec4 2 _ _

theorem outs_14 (c : Dev nD) : outs m 14 main_v64 c = (dat5 (W13 m) c).arrAt 7 cfg5.N := by
  show o14 m main_v64 c = _
  unfold o14
  exact Pipeline.withArrays_arr spec5 launch5.win.arr_inj c _ _ 7
theorem hF5 (c : Dev nD) (w : Fin cfg5.W) :
    (dat5 (W13 m) c).arrAt w cfg5.N = Gen.V14 m (outs m) c (Pipeline.arrRef spec5 w) :=
  arrAt_eq_update (dat5 (W13 m) c) (Gen.V13 m (outs m) c) (A_eq5 _ c) 7 (by decide) _ (outs_14 m c) w
theorem hrest5 (c : Dev nD) : ∀ b, b ∉ Finset.univ.image (Pipeline.arrRef spec5) → Gen.V14 m (outs m) c b = Gen.V13 m (outs m) c b :=
  rest_of_update spec5 7 _ _

def pdats : (p : Fin 6) → (c : Dev nD) → Dat τ (Elt F) Unit ℕ (UR sig nD τ) ℕ (cfgs p) c
  | ⟨0, _⟩ => fun c => dat0 (W1 m) c
  | ⟨1, _⟩ => fun c => dat1 (W3 m) c
  | ⟨2, _⟩ => fun c => dat2 (W5 m) c
  | ⟨3, _⟩ => fun c => dat3 (W7 m) c
  | ⟨4, _⟩ => fun c => dat4 (W11 m) c
  | ⟨5, _⟩ => fun c => dat5 (W13 m) c

end Cert.KernelIdeal.Hand

end
-- ==== Proof.KI.Segs.lean ====
import proofs.«407319_j12446815224334_1_alg».proof.Proof.KI.Fold
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region whose body owes nothing and whose invariant at both ends is the core's untouched rest, entered at `Vi` and left at `Vo`. -/
def regOf (p : Fin 6) (hl : Pipeline.LaunchFacts (nD := nD) (τ := τ) cfgs p) (Vi Vo : Dev nD → Valuation τ sig (Elt F))
    (hb : ∀ c, BodyObligation (pdats m p c) (defs₀ (F := F)) 𝒱₀ () Set.univ)
    (howed : ∀ c t, (pdats m p c).owed t = 0) (hrec : ∀ c, (pdats m p c).recorded 0 = Set.univ) (hq : ∀ c w, (pdats m p c).q w = fullShare)
    (hA : ∀ c w, (pdats m p c).A w = Vi c (Pipeline.arrRef (cfgs p).spec w))
    (hΦ0 : ∀ c, Pipeline.ΦA (cfgs p).spec c ⊢ (pdats m p c).Φ 0)
    (hΦN : ∀ c, (pdats m p c).Φ (Fin.last (cfgs p).N) ⊢ Pipeline.ΦA (cfgs p).spec c)
    (hF : ∀ c w, (pdats m p c).arrAt w (cfgs p).N = Vo c (Pipeline.arrRef (cfgs p).spec w))
    (hrest : ∀ c, ∀ b, b ∉ Finset.univ.image (Pipeline.arrRef (cfgs p).spec) → Vo c b = Vi c b) :
    Pipeline.RegionSeg (pcfgs (F := F)) Gen.adm (pdats m) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) Gen.adm (pdats m) hl.win hl.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    have h := hΦ0 c
    unfold Pipeline.ΦA at h
    iintro ⟨Hp, -, Hr⟩
    iapply h
    isplitl [Hr]; · iexact Hr
    iexact Hp
  hout c := by
    rw [Pipeline.ownSems0_none]
    have h := hΦN c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      hl.win hl.arr_whole c (pdats m) ((pdats m p c).share_full (hq c))
      (fun b => Vi c b) (fun b => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := regOf m 0 launch0 (Gen.V1 m) (Gen.V2 m (outs m)) (body_obligation0 (W1 m)) (owed_eq0 (W1 m)) (fun _ => rfl) (q_eq0 (W1 m)) (A_eq0 (W1 m)) (hin0 (W1 m)) (hout0 (W1 m)) (hF0 m) (hrest0 m)
def reg1 := regOf m 1 launch1 (Gen.V3 m (outs m)) (Gen.V4 m (outs m)) (body_obligation1 (W3 m)) (owed_eq1 (W3 m)) (fun _ => rfl) (q_eq1 (W3 m)) (A_eq1 (W3 m)) (hin1 (W3 m)) (hout1 (W3 m)) (hF1 m) (hrest1 m)
def reg2 := regOf m 2 launch2 (Gen.V5 m (outs m)) (Gen.V6 m (outs m)) (body_obligation2 (W5 m)) (owed_eq2 (W5 m)) (fun _ => rfl) (q_eq2 (W5 m)) (A_eq2 (W5 m)) (hin2 (W5 m)) (hout2 (W5 m)) (hF2 m) (hrest2 m)
def reg3 := regOf m 3 launch3 (Gen.V7 m (outs m)) (Gen.V8 m (outs m)) (body_obligation3 (W7 m)) (owed_eq3 (W7 m)) (fun _ => rfl) (q_eq3 (W7 m)) (A_eq3 (W7 m)) (hin3 (W7 m)) (hout3 (W7 m)) (hF3 m) (hrest3 m)
def reg4 := regOf m 4 launch4 (Gen.V11 m (outs m)) (Gen.V12 m (outs m)) (body_obligation4 (W11 m)) (owed_eq4 (W11 m)) (fun _ => rfl) (q_eq4 (W11 m)) (A_eq4 (W11 m)) (hin4 (W11 m)) (hout4 (W11 m)) (hF4 m) (hrest4 m)
def reg5 := regOf m 5 launch5 (Gen.V13 m (outs m)) (Gen.V14 m (outs m)) (body_obligation5 (W13 m)) (owed_eq5 (W13 m)) (fun _ => rfl) (q_eq5 (W13 m)) (A_eq5 (W13 m)) (hin5 (W13 m)) (hout5 (W13 m)) (hF5 m) (hrest5 m)

abbrev u₀ : UR sig nD τ := initOf (Pipeline.cells cfgs cellOf_inj) (Pipeline.launchToks cfgs cellOf_inj)

theorem hu₀ : (ownU (u₀) : sProp 𝕄) ⊢ |={Set.univ}=> iprop(BI.own ((emb₁ : Emb (URounds (GSem nD τ sig) Unit) 𝕄) (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE6 (c : Dev nD) : E (F := F) 6 c ⊢ (iprop(∃ W, owes (c : Thread nD τ) (0 : CellTallies nD τ sig Unit) W) : sProp 𝕄) := by
  iintro ⟨-, HO⟩; iexact HO

set_option backward.isDefEq.respectTransparency.types false in
/-- Every weakly fair execution ends; the result array holds what the last region leaves and each argument is as launched. -/
theorem run (ρ : Dev nD → PrngReg) : θ_run defs (onTc (τ := τ) (main (F := F))) ⟨m, fun _ => 0, ρ⟩ (fun r => ∀ c : Dev nD,
      r.2.mem ((c.tc : Thread nD τ).loc main_v64) = outs m 14 main_v64 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m) (reg3 m) (reg4 m) (reg5 m))
    (fun c Q => by
      rewrite [main_chain c, Pipeline.Seg.run_eq_chain,
        show (Gen.segs m (outs m) 𝒱₀ L lv E () (pdats m) (reg0 m) (reg1 m) (reg2 m) (reg3 m) (reg4 m) (reg5 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp)) (u₀ := u₀) (hu₀ := hu₀)
    (T₀ := fun c => iprop(StableHlo.held (c : Thread nD τ) (Pipeline.ucRefs τ sig) (Gen.V0 m c) ∗ R c))
    (Tₙ := fun c => StableHlo.held (c : Thread nD τ) (Pipeline.ucRefs τ sig) (Gen.V14 m (outs m) c))
    (hch := fun c => ⟨.rfl, .rfl, .rfl, .rfl, .rfl, .rfl, .rfl, .rfl, .rfl, .rfl, .rfl, .rfl, .rfl, .rfl, sep_mono .rfl (hE6 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V14 m (outs m) c b)
    (hfin := fun c s' => by
      iintro ⟨Hh, HSI⟩
      unfold StableHlo.held
      imodintro
      iapply (pointsTo_read_all (Pipeline.ucRefs τ sig) (fun b => (((c : Thread nD τ)).1, b)) (Gen.V14 m (outs m) c) s')
      isplitl [Hh] <;> iassumption)
    (hQ := fun s h c =>
      ⟨(h c _ (mem_uc main_v64 (by decide))).trans (Function.update_self (β := fun b : DevRef τ sig => Buf (Elt F) ((c : Thread nD τ).1, b)) _ _ _),
       (h c _ (mem_uc main_arg0 (by decide))).trans (Gen.V14_main_arg0 m (outs m) c),
       (h c _ (mem_uc main_arg1 (by decide))).trans (Gen.V14_main_arg1 m (outs m) c),
       (h c _ (mem_uc main_arg2 (by decide))).trans (Gen.V14_main_arg2 m (outs m) c),
       (h c _ (mem_uc main_arg3 (by decide))).trans (Gen.V14_main_arg3 m (outs m) c),
       (h c _ (mem_uc main_arg4 (by decide))).trans (Gen.V14_main_arg4 m (outs m) c),
       (h c _ (mem_uc main_arg5 (by decide))).trans (Gen.V14_main_arg5 m (outs m) c),
       (h c _ (mem_uc main_arg6 (by decide))).trans (Gen.V14_main_arg6 m (outs m) c),
       (h c _ (mem_uc main_arg7 (by decide))).trans (Gen.V14_main_arg7 m (outs m) c),
       (h c _ (mem_uc main_arg8 (by decide))).trans (Gen.V14_main_arg8 m (outs m) c),
       (h c _ (mem_uc main_arg9 (by decide))).trans (Gen.V14_main_arg9 m (outs m) c),
       (h c _ (mem_uc main_arg10 (by decide))).trans (Gen.V14_main_arg10 m (outs m) c),
       (h c _ (mem_uc main_arg11 (by decide))).trans (Gen.V14_main_arg11 m (outs m) c),
       (h c _ (mem_uc main_arg12 (by decide))).trans (Gen.V14_main_arg12 m (outs m) c),
       (h c _ (mem_uc main_arg13 (by decide))).trans (Gen.V14_main_arg13 m (outs m) c),
       (h c _ (mem_uc main_arg14 (by decide))).trans (Gen.V14_main_arg14 m (outs m) c),
       (h c _ (mem_uc main_arg15 (by decide))).trans (Gen.V14_main_arg15 m (outs m) c)⟩)

end Cert.KernelIdeal.Hand

end
-- ==== Proof.KI.Spec.lean ====
import proofs.«407319_j12446815224334_1_alg».proof.KernelIdeal
import Idealize.ShloMosaic.PureOps.Ideal
import Idealize.ShloMosaic.PureOps.Ideal.Laws
import Idealize.ShloMosaic.Lib.ValueIdx

noncomputable section

namespace Cert.KernelIdeal.Hand

open Cert.KernelIdeal Idealize.ShloMosaic

-- Index (p, q) of a rank-2 array, and the two coordinates of such an index.
abbrev at2 {a b : Nat} (p : Fin a) (q : Fin b) : (⟨2, ![a, b]⟩ : Shape).Idx := fun d => match d with
  | ⟨0, _⟩ => ⟨p.val, p.isLt⟩
  | ⟨1, _⟩ => ⟨q.val, q.isLt⟩

abbrev r2 {a b : Nat} (i : (⟨2, ![a, b]⟩ : Shape).Idx) : Fin a := ⟨(i 0).val, (i 0).isLt⟩
abbrev c2 {a b : Nat} (i : (⟨2, ![a, b]⟩ : Shape).Idx) : Fin b := ⟨(i 1).val, (i 1).isLt⟩

-- The regions as functions of whole arrays over the extended reals: product, bias and clamp, group mean, affine layer, head.
def specMM {n k p : Nat} (x : (⟨2, ![n, k]⟩ : Shape).Idx → EReal) (w : (⟨2, ![k, p]⟩ : Shape).Idx → EReal) :
    (⟨2, ![n, p]⟩ : Shape).Idx → EReal :=
  fun i => ∑ q : Fin k, x (at2 (r2 i) q) * w (at2 q (c2 i))

def specRB {n k : Nat} (agg : (⟨2, ![n, k]⟩ : Shape).Idx → EReal) (b : (⟨2, ![1, k]⟩ : Shape).Idx → EReal) :
    (⟨2, ![n, k]⟩ : Shape).Idx → EReal :=
  fun i => max (agg i + b (at2 (0 : Fin 1) (c2 i))) 0

def specPool {g n k : Nat} (oh : (⟨2, ![g, n]⟩ : Shape).Idx → EReal) (hp : (⟨2, ![n, k]⟩ : Shape).Idx → EReal) :
    (⟨2, ![g, k]⟩ : Shape).Idx → EReal :=
  fun i => Ideal.div (∑ q : Fin n, oh (at2 (r2 i) q) * hp (at2 q (c2 i))) (max (∑ q : Fin n, oh (at2 (r2 i) q)) 1)

def specAff {n k p : Nat} (x : (⟨2, ![n, k]⟩ : Shape).Idx → EReal) (w : (⟨2, ![k, p]⟩ : Shape).Idx → EReal)
    (b : (⟨2, ![1, p]⟩ : Shape).Idx → EReal) : (⟨2, ![n, p]⟩ : Shape).Idx → EReal :=
  fun i => specMM x w i + b (at2 (0 : Fin 1) (c2 i))

def specMLP (x : (⟨2, ![64, 64]⟩ : Shape).Idx → EReal) (w1 : (⟨2, ![64, 32]⟩ : Shape).Idx → EReal) (b1 : (⟨2, ![1, 32]⟩ : Shape).Idx → EReal)
    (w2 : (⟨2, ![32, 16]⟩ : Shape).Idx → EReal) (b2 : (⟨2, ![1, 16]⟩ : Shape).Idx → EReal)
    (w3 : (⟨2, ![16, 1]⟩ : Shape).Idx → EReal) (b3 : (⟨2, ![1, 1]⟩ : Shape).Idx → EReal) : (⟨2, ![64, 1]⟩ : Shape).Idx → EReal :=
  specAff (fun i => max (specAff (fun i => max (specAff x w1 b1 i) 0) w2 b2 i) 0) w3 b3

end Cert.KernelIdeal.Hand

end
-- ==== Proof.KI.KRes.lean ====
import proofs.«407319_j12446815224334_1_alg».proof.Proof.Gen.KernelIdeal
import proofs.«407319_j12446815224334_1_alg».proof.Proof.KI.Spec

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

-- Row d is the sum, over the edges with target d, of the edge weight times the source's row of y.
def agg (y : Vec Ideal S50000x64 .f32) (ei : Vec Ideal S2x800000 .i32) (ew : Vec Ideal S800000 .f32) : Vec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (shapeCast _ (extractStridedSlice S1x800000 ![1, 0] ei slices_S2x800000_S1x800000_1_0) shapeCasts_S1x800000_S800000))
    (mulf
      (Host.gather gather_S50000x64_S800000x1_S800000x64_1_0_n_n_0_1_164 y
        (broadcastInDim S800000x1 ![0] bcast_S800000_S800000x1_0
          (select (cmpi .slt (shapeCast _ (extractStridedSlice S1x800000 ![0, 0] ei slices_S2x800000_S1x800000_0_0) shapeCasts_S1x800000_S800000) (broadcastInDim S800000 ![] bcast_S_S800000 (constantI S_ 32 0#32)))
            (addi (shapeCast _ (extractStridedSlice S1x800000 ![0, 0] ei slices_S2x800000_S1x800000_0_0) shapeCasts_S1x800000_S800000) (broadcastInDim S800000 ![] bcast_S_S800000 (constantI S_ 32 50000#32)))
            (shapeCast _ (extractStridedSlice S1x800000 ![0, 0] ei slices_S2x800000_S1x800000_0_0) shapeCasts_S1x800000_S800000))))
      (broadcastInDim S800000x64 ![0, 1] bcast_S800000x1_S800000x64_0_1 (broadcastInDim S800000x1 ![0] bcast_S800000_S800000x1_0 ew)))

-- Entry (g, n) is 1 when row n has group id g; the 1200 appended ids are -1 and match no group.
def onehotT (b : Vec Ideal S50000 .i32) : Vec Ideal S64x51200 .f32 :=
  uitofp (F := Ideal) .f32
    (cmpi .eq
      (broadcastInDim S64x51200 ![0, 1] bcast_S1x51200_S64x51200_0_1
        (broadcastInDim S1x51200 ![1] bcast_S51200_S1x51200_1
          (concatenate S51200 0 [⟨S50000, b⟩, ⟨S1200, broadcastInDim S1200 ![] bcast_S_S1200 (constantI S_ 32 4294967295#32)⟩]
            concatenates_S50000_S1200_S51200_d0)))
      (broadcastInDim S64x51200 ![0, 1] bcast_S64x1_S64x51200_0_1
        (broadcastInDim S64x1 ![0] bcast_S64_S64x1_0 (iotaInDim S64 32 0))))

-- 1200 rows of zeros appended.
def padRows (h : Vec Ideal S50000x64 .f32) : Vec Ideal S51200x64 .f32 :=
  pad S51200x64 ![0, 0] ![1200, 0] ![0, 0] h (sitofp (F := Ideal) .f32 (constantI S_ 32 0#32)) pads_S50000x64_S51200x64_012000_000 h_S_

-- The program's result as a nested term of the launch memory, one definition per stage.
def kY0 : Vec Ideal S50000x64 .f32 :=
  specMM ((m ((c.tc : Thread nD τ).loc main_arg0)) : S50000x64.Idx → EReal) ((m ((c.tc : Thread nD τ).loc main_arg4)) : S64x64.Idx → EReal)
def kY1 : Vec Ideal S50000x64 .f32 :=
  specMM (specRB (agg (kY0 m c) (m ((c.tc : Thread nD τ).loc main_arg1)) (m ((c.tc : Thread nD τ).loc main_arg2))) (shapeCast _ (m ((c.tc : Thread nD τ).loc main_arg5)) shapeCasts_S64_S1x64)) ((m ((c.tc : Thread nD τ).loc main_arg6)) : S64x64.Idx → EReal)
def kY2 : Vec Ideal S50000x64 .f32 :=
  specMM (specRB (agg (kY1 m c) (m ((c.tc : Thread nD τ).loc main_arg1)) (m ((c.tc : Thread nD τ).loc main_arg2))) (shapeCast _ (m ((c.tc : Thread nD τ).loc main_arg7)) shapeCasts_S64_S1x64)) ((m ((c.tc : Thread nD τ).loc main_arg8)) : S64x64.Idx → EReal)
def kH3 : Vec Ideal S50000x64 .f32 :=
  specRB (agg (kY2 m c) (m ((c.tc : Thread nD τ).loc main_arg1)) (m ((c.tc : Thread nD τ).loc main_arg2))) (shapeCast _ (m ((c.tc : Thread nD τ).loc main_arg9)) shapeCasts_S64_S1x64)
def kPool : Vec Ideal S64x64 .f32 :=
  specPool (onehotT (m ((c.tc : Thread nD τ).loc main_arg3))) (padRows (kH3 m c))
def kres : Vec Ideal S64x1 .f32 :=
  specMLP (kPool m c) ((m ((c.tc : Thread nD τ).loc main_arg10)) : S64x32.Idx → EReal) (shapeCast _ (m ((c.tc : Thread nD τ).loc main_arg11)) shapeCasts_S32_S1x32)
    ((m ((c.tc : Thread nD τ).loc main_arg12)) : S32x16.Idx → EReal) (shapeCast _ (m ((c.tc : Thread nD τ).loc main_arg13)) shapeCasts_S16_S1x16)
    ((m ((c.tc : Thread nD τ).loc main_arg14)) : S16x1.Idx → EReal) (shapeCast _ (m ((c.tc : Thread nD τ).loc main_arg15)) shapeCasts_S1_S1x1)

end Cert.KernelIdeal.Hand

end
-- ==== Proof.KI.Chain.lean ====
import proofs.«407319_j12446815224334_1_alg».proof.Proof.Gen.KernelIdeal.Regions
import proofs.«407319_j12446815224334_1_alg».proof.Proof.KI.KRes

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ) (outs : Gen.Outs (F := Ideal)) (c : Dev nD)
  (W : Valuation τ sig (Elt Ideal))

section
variable (hs : W main_v1 = V1 m c main_v1) (hd : W main_v3 = V1 m c main_v3)
include hs hd

-- An aggregation stretch computes agg whenever the two index vectors are still the rows cut out of the edge index, and reshapes a bias.
theorem host1 : after hostOps1 W main_v17 = agg (W main_v4) (m ((c.tc : Thread nD τ).loc main_arg1)) (W main_arg2) ∧ after hostOps1 W main_v18 = shapeCast _ (W main_arg5) shapeCasts_S64_S1x64 := by
  dsimp only [hostOps1]; after_results_simp; rw [hs, hd]; exact ⟨rfl, rfl⟩
theorem host2 : after hostOps2 W main_v32 = agg (W main_v19) (m ((c.tc : Thread nD τ).loc main_arg1)) (W main_arg2) ∧ after hostOps2 W main_v33 = shapeCast _ (W main_arg7) shapeCasts_S64_S1x64 := by
  dsimp only [hostOps2]; after_results_simp; rw [hs, hd]; exact ⟨rfl, rfl⟩
theorem host3 : after hostOps3 W main_v47 = agg (W main_v34) (m ((c.tc : Thread nD τ).loc main_arg1)) (W main_arg2) ∧ after hostOps3 W main_v48 = shapeCast _ (W main_arg9) shapeCasts_S64_S1x64 := by
  dsimp only [hostOps3]; after_results_simp; rw [hs, hd]; exact ⟨rfl, rfl⟩
end

theorem host4_zero : after hostOps4 W main_c_7 = constantI S_ 32 0#32 := by
  dsimp only [hostOps4]; after_results
theorem host4_1_pad : after hostOps4_1 W main_v50
    = pad S51200x64 ![0, 0] ![1200, 0] ![0, 0] (W main_v49) (sitofp (F := Ideal) .f32 (W main_c_7)) pads_S50000x64_S51200x64_012000_000 h_S_ := by
  dsimp only [hostOps4_1]; after_results; rfl
theorem host4_2_onehot : after hostOps4_2 W main_v59 = onehotT (W main_arg3) := by
  dsimp only [hostOps4_2]; after_results; rfl
theorem host5 : after hostOps5 W main_v61 = shapeCast _ (W main_arg11) shapeCasts_S32_S1x32 ∧ after hostOps5 W main_v62 = shapeCast _ (W main_arg13) shapeCasts_S16_S1x16
    ∧ after hostOps5 W main_v63 = shapeCast _ (W main_arg15) shapeCasts_S1_S1x1 := by
  dsimp only [hostOps5]; after_results; exact ⟨rfl, rfl, rfl⟩

-- Every stage is substituted into the next, from the last array back to the program's arguments.
theorem chain_out
    (h2 : (outs 2 main_v4 c : S50000x64.Idx → EReal) = specMM (Gen.V1 m c main_arg0 : S50000x64.Idx → EReal) (Gen.V1 m c main_arg4 : S64x64.Idx → EReal))
    (h4 : (outs 4 main_v19 c : S50000x64.Idx → EReal) = specMM (specRB (Gen.V3 m outs c main_v17 : S50000x64.Idx → EReal) (Gen.V3 m outs c main_v18 : S1x64.Idx → EReal)) (Gen.V3 m outs c main_arg6 : S64x64.Idx → EReal))
    (h6 : (outs 6 main_v34 c : S50000x64.Idx → EReal) = specMM (specRB (Gen.V5 m outs c main_v32 : S50000x64.Idx → EReal) (Gen.V5 m outs c main_v33 : S1x64.Idx → EReal)) (Gen.V5 m outs c main_arg8 : S64x64.Idx → EReal))
    (h8 : (outs 8 main_v49 c : S50000x64.Idx → EReal) = specRB (Gen.V7 m outs c main_v47 : S50000x64.Idx → EReal) (Gen.V7 m outs c main_v48 : S1x64.Idx → EReal))
    (h12 : (outs 12 main_v60 c : S64x64.Idx → EReal) = specPool (Gen.V11 m outs c main_v59 : S64x51200.Idx → EReal) (Gen.V11 m outs c main_v50 : S51200x64.Idx → EReal))
    (h14 : (outs 14 main_v64 c : S64x1.Idx → EReal) = specMLP (Gen.V13 m outs c main_v60 : S64x64.Idx → EReal) (Gen.V13 m outs c main_arg10 : S64x32.Idx → EReal) (Gen.V13 m outs c main_v61 : S1x32.Idx → EReal) (Gen.V13 m outs c main_arg12 : S32x16.Idx → EReal) (Gen.V13 m outs c main_v62 : S1x16.Idx → EReal) (Gen.V13 m outs c main_arg14 : S16x1.Idx → EReal) (Gen.V13 m outs c main_v63 : S1x1.Idx → EReal)) :
    (outs 14 main_v64 c : S64x1.Idx → EReal) = kres m c := by
  simp +decide only [h14, h12, h8, h6, h4, h2, V13_of m, V12_of m, V11_of m, V10_of m, V9_of m, V8_of m, V7_of m, V6_of m, V5_of m, V4_of m, V3_of m, V2_of m, V1_of m, Function.update_self,
    host1 m c (V2 m outs c), host2 m c (V4 m outs c), host3 m c (V6 m outs c), host4_zero (V8 m outs c), host4_1_pad (V9 m outs c),
    host4_2_onehot (V10 m outs c), host5 (V12 m outs c)]
  rfl

end Cert.KernelIdeal.Hand
-- ==== Proof.KI.Val0.lean ====
import proofs.«407319_j12446815224334_1_alg».proof.Proof.KI.Reg0
import proofs.«407319_j12446815224334_1_alg».proof.Proof.KI.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

theorem zeros2 : (![0, 0] : Fin 2 → Nat) = fun _ => 0 := funext fun a => match a with | ⟨0, _⟩ => rfl | ⟨1, _⟩ => rfl

/-- Reading an array through the rectangle that is all of it gives the array. -/
theorem ld0 {Val : EltTy → Type} {a b : Nat} {e : EltTy} (inb) (X : (⟨2, ![a, b]⟩ : Shape).Idx → Val e) :
    View.ld X (Rect.unit ![0, 0] (Shape.size ⟨2, ![a, b]⟩) inb) = X := View.ld_unit_zero zeros2 inb X

/-- Reading through an index map that fixes every coordinate reads the array itself. -/
theorem read_fix {n : Fin 2 → ℕ} {α : Type} (X : ((a : Fin 2) → Fin (n a)) → α) {f : ((a : Fin 2) → Fin (n a)) → (a : Fin 2) → Fin (n a)}
    (h : ∀ y a, (f y a : ℕ) = y a) : (fun y => X (f y)) = X :=
  funext fun y => congrArg X (Shape.idx_ext₂ (h y 0) (h y 1))

/-- A matrix product added to zero: entry (r, c) is the sum over q of x (r, q) · w (q, c). -/
theorem mm_apply {m k n : Nat} {φ₁ φ₂ : FTy} {D : DotDims ⟨2, ![m, k]⟩ ⟨2, ![k, n]⟩ ⟨2, ![m, n]⟩} (hD : D = .plain m k n)
    (x : FVec Ideal ⟨2, ![m, k]⟩ φ₁) (w : FVec Ideal ⟨2, ![k, n]⟩ φ₂) :
    matmul D none x w (constant (F := Ideal) _ .f32 0x00000000#32) = specMM x w := by
  subst hD
  funext i
  show FloatOps.matmul _ none x w _ i = _
  rw [Ideal.matmul_constant_zero_apply, ← Equiv.sum_comp (contrEquiv1 (.plain m k n) k rfl rfl).symm]
  refine Finset.sum_congr rfl fun q _ => ?_
  have hq := contrEquiv1_symm_val (.plain m k n) k rfl rfl q
  exact congrArg₂ (fun a b => x a * w b) (Shape.idx_ext₂ rfl hq) (Shape.idx_ext₂ hq rfl)

/-- A 1 × b row repeated down a rows contributes, at (r, c), its entry c. -/
theorem bias_apply {a b : Nat} (v : (⟨2, ![1, b]⟩ : Shape).Idx → EReal) (h : (⟨2, ![1, b]⟩ : Shape).Broadcasts ⟨2, ![a, b]⟩)
    (i : (⟨2, ![a, b]⟩ : Shape).Idx) : broadcastTo ⟨2, ![a, b]⟩ v h i = v (at2 (0 : Fin 1) (c2 i)) :=
  (congrArg (broadcastTo _ v h) (eq_ix2 i)).trans ((broadcastTo_1b_ab_apply v h (i 0) (i 1)).trans (congrArg v (Shape.idx_ext₂ rfl rfl)))

theorem pay0_eq (x0 : Vec Ideal S10000x64 .f32) (x1 : Vec Ideal S64x64 .f32) : k0_pay1 (F := Ideal) x0 x1 = specMM x0 x1 := by
  unfold k0_pay1
  exact mm_apply rfl _ _

variable (V : (c : Dev nD) → (b : Ref sig .tc) → Buf (Elt Ideal) ((c : Thread nD τ).loc b))

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The five blocks of 10000 rows cover the 50000 rows: row r is in block r / 10000. -/
theorem cover0 (i : S50000x64.Idx) : ∃ t : Fin cfg0.N, (cfg0.win 2).flush t = true ∧ i ∈ ((cfg0.win 2).blk t).view.set := by
  have hi0 := idx2_lt0 i
  have hi1 := idx2_lt1 i
  let t : Fin cfg0.N := ⟨(i 0).val / 10000, by show _ < grid0.N; rw [N_0]; omega⟩
  obtain ⟨-, -, -, -, e4, e5⟩ := idx0 t
  have ht : t.val = (i 0).val / 10000 := rfl
  refine ⟨t, flush0_2 t, ?_⟩
  show i ∈ ((View.whole main_v4).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The product of a block of rows of x with W is that block of rows of x · W. -/
theorem val0 (c : Dev nD) : ((dat0 (F := Ideal) V c).arrAt 2 cfg0.N : S50000x64.Idx → EReal)
    = specMM (V c main_arg0 : S50000x64.Idx → EReal) (V c main_arg4 : S64x64.Idx → EReal) := by
  refine (dat0 (F := Ideal) V c).arrAt_eq_of_cover 2 _ (fun t _ => ?_) cover0
  show (cfg0.win 2).cut (grid0.coords t) ((dat0 (F := Ideal) V c).after 2 t) = _
  rw [after0_2]
  unfold out0_2
  rw [View.canon_unit_zero zeros2]
  simp only [ld0]
  rw [pay0_eq]
  obtain ⟨e0, e1, e2, e3, e4, e5⟩ := idx0 t
  funext j
  show specMM _ _ j = specMM _ _ _
  unfold specMM
  refine Finset.sum_congr rfl fun q _ => congrArg₂ (fun a b : EReal => a * b)
    (congrArg (V c main_arg0 : S50000x64.Idx → EReal) (Shape.idx_ext₂ ?_ ?_)) (congrArg (V c main_arg4 : S64x64.Idx → EReal) (Shape.idx_ext₂ ?_ ?_))
  · show win0_0.index t (0 : Fin 2) * 10000 + 1 * (j 0).val = win0_2.index t (0 : Fin 2) * 10000 + 1 * (j 0).val; omega
  · show win0_0.index t (1 : Fin 2) * 64 + 1 * q.val = q.val; omega
  · show win0_1.index t (0 : Fin 2) * 64 + 1 * q.val = q.val; omega
  · show win0_1.index t (1 : Fin 2) * 64 + 1 * (j 1).val = win0_2.index t (1 : Fin 2) * 64 + 1 * (j 1).val; omega

end Cert.KernelIdeal.Hand

end
-- ==== Proof.KI.PoolFold.lean ====
import proofs.«407319_j12446815224334_1_alg».proof.Proof.KI.Spec
import Idealize.ShloMosaic.PureOps.Ideal.Laws
import Idealize.ShloMosaic.Lib.ValueIdx
import Idealize.ShloMosaic.Lib.Pipeline.Value
import Mathlib.Algebra.BigOperators.Fin

noncomputable section

namespace Cert.KernelIdeal.Hand

open Cert.KernelIdeal Idealize.ShloMosaic Idealize.ShloMosaic.ValueIdx

abbrev colOf (t : Fin 10) (q : Fin 5120) : Fin 51200 := finProdFinEquiv (m := 10) (n := 5120) (t, q)

-- Positions on the long axis are pairs (block, place in the block), and a sum over pairs is the iterated sum.
theorem sum_long_eq_sum_blocks {M : Type*} [AddCommMonoid M] (f : Fin 51200 → M) :
    ∑ n, f n = ∑ t : Fin 10, ∑ q : Fin 5120, f (colOf t q) :=
  (Equiv.sum_comp (finProdFinEquiv (m := 10) (n := 5120)) f).symm.trans (Fintype.sum_prod_type _)

-- Induction on the number of steps: the last step adds the last term to the sum of the earlier ones.
theorem run_last_eq_sum {M : Type*} [AddCommMonoid M] : ∀ {n : ℕ} (a s : Fin (n + 1) → M), a 0 = s 0 →
    (∀ (t : ℕ) (h : t + 1 < n + 1), a ⟨t + 1, h⟩ = a ⟨t, by omega⟩ + s ⟨t + 1, h⟩) → a (Fin.last n) = ∑ u, s u
  | 0, a, s, h0, _ => by rw [Fin.sum_univ_one]; exact h0
  | n + 1, a, s, h0, hs => by
    rw [Fin.sum_univ_castSucc, ← run_last_eq_sum (fun t => a t.castSucc) (fun t => s t.castSucc) h0 fun t h => hs t (by omega)]
    exact hs n (by omega)

-- An m × k by k × n product contracts the shared axis: at (g, j) the left operand is read at (g, q), the right at (q, j).
theorem matmul2_apply {m k n : Nat} {φ₁ φ₂ : FTy} (D : DotDims ⟨2, ![m, k]⟩ ⟨2, ![k, n]⟩ ⟨2, ![m, n]⟩) (hD : D = .plain m k n)
    (l : FVec Ideal ⟨2, ![m, k]⟩ φ₁) (r : FVec Ideal ⟨2, ![k, n]⟩ φ₂) (acc : FVec Ideal ⟨2, ![m, n]⟩ .f32) (g : Fin m) (j : Fin n) :
    matmul D none l r acc (at2 g j) = acc (at2 g j) + ∑ q : Fin k, l (at2 g q) * r (at2 q j) := by
  subst hD
  refine (Ideal.matmul_apply _ none l r acc (at2 g j)).trans (congrArg (acc (at2 g j) + ·) ?_)
  rw [← Equiv.sum_comp (contrEquiv1 (DotDims.plain m k n) k rfl rfl).symm]
  refine Finset.sum_congr rfl fun q _ => ?_
  have hq := contrEquiv1_symm_val (DotDims.plain m k n) k rfl rfl q
  exact congrArg₂ (l · * r ·) (Shape.idx_ext₂ rfl hq) (Shape.idx_ext₂ hq rfl)

section Ops

variable [Facts₀]
open Facts₀

theorem pool_rowsum_apply (x : FVec Ideal S64x5120 .f32) (g : Fin 64) :
    multiReduction (F := Ideal) .add [1] S64 x 0x00000000#32 reduces_S64x5120_S64 (.inl rfl) rfl (ix1 g)
      = ∑ k : Fin 5120, x (at2 g k) :=
  (Ideal.multiReduction_add_single x _ reduces_S64x5120_S64 (.inl rfl) rfl (ix1 g)).trans
    (Finset.sum_congr rfl fun k _ => congrArg x (Shape.idx_ext₂ rfl rfl))

end Ops

-- A length-64 vector viewed as a 64 × 1 column reads entry g at (g, 0): both sit at row-major position g.
theorem column_of_vector_apply {α : Type} (v : S64.Idx → α) (h : S64.ShapeCasts S64x1) (g : Fin 64) (z : Fin 1) :
    shapeCast S64x1 v h (at2 g z) = v (ix1 g) := by
  refine shapeCast_apply v h (at2 g z) (ix1 g) ?_
  rw [Shape.rowMajor_val_one, Shape.rowMajor_val_two]
  show g.val = g.val * 1 + z.val
  omega

theorem column_broadcast_apply {α : Type} (v : S64x1.Idx → α) (h : S64x1.Broadcasts S64x64) (g j : Fin 64) :
    broadcastTo S64x64 v h (at2 g j) = v (at2 g (0 : Fin 1)) :=
  broadcastTo_apply v h (at2 g j) (at2 g (0 : Fin 1)) fun a => match a with | ⟨0, _⟩ => rfl | ⟨1, _⟩ => rfl

end Cert.KernelIdeal.Hand

end
-- ==== Proof.KI.Val1.lean ====
import proofs.«407319_j12446815224334_1_alg».proof.Proof.KI.Reg1
import proofs.«407319_j12446815224334_1_alg».proof.Proof.KI.PoolFold
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

-- The two roundings are the identity on the extended reals, so the stored block is the product of max (agg + b, 0) by W.
theorem pay1_at (x0 : S10000x64.Idx → EReal) (x1 : S1x64.Idx → EReal) (x2 : S64x64.Idx → EReal) (p : Fin 10000) (q : Fin 64) :
    k1_pay1 (F := Ideal) x0 x1 x2 (at2 p q) = ∑ k : Fin 64, max (x0 (at2 p k) + x1 (at2 (0 : Fin 1) k)) 0 * x2 (at2 k q) := by
  unfold k1_pay1
  simp only [shapeCast_self]
  rw [matmul2_apply dot_S10000x64_S64x64_S10000x64_1_0_0_1_n_n rfl, constant_apply, Ideal.ofBits_zero_f32, zero_add]
  exact Finset.sum_congr rfl fun k _ => congrArg₂ (fun u z => max (x0 (at2 p k) + u) z * x2 (at2 k q))
    (broadcastTo_1b_ab_apply x1 _ p k) Ideal.ofBits_zero_f32

theorem hz1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b)) (c : Dev nD)

theorem agg_blk1_at (t : Fin cfg1.N) (p : Fin 10000) (k : Fin 64) (P : Fin 50000) (hP : P.val = t.val * 10000 + p.val) :
    (iblk1 (F := Ideal) V c 0 t : S10000x64.Idx → EReal) (at2 p k) = (V c main_v17 : S50000x64.Idx → EReal) (at2 P k) := by
  obtain ⟨e0, e1, -⟩ := idx_facts1 t
  exact congrArg (V c main_v17) (Shape.idx_ext₂ (by show win1_0.index t (0 : Fin 2) * 10000 + 1 * p.val = P.val; omega)
    (by show win1_0.index t (1 : Fin 2) * 64 + 1 * k.val = k.val; omega))

theorem bias_blk1_at (t : Fin cfg1.N) (k : Fin 64) :
    (iblk1 (F := Ideal) V c 1 t : S1x64.Idx → EReal) (at2 (0 : Fin 1) k) = (V c main_v18 : S1x64.Idx → EReal) (at2 (0 : Fin 1) k) := by
  obtain ⟨-, -, e2, e3, -⟩ := idx_facts1 t
  exact congrArg (V c main_v18) (Shape.idx_ext₂ (by show win1_1.index t (0 : Fin 2) * 1 + 1 * 0 = 0; omega)
    (by show win1_1.index t (1 : Fin 2) * 64 + 1 * k.val = k.val; omega))

theorem w_blk1_at (t : Fin cfg1.N) (k q : Fin 64) :
    (iblk1 (F := Ideal) V c 2 t : S64x64.Idx → EReal) (at2 k q) = (V c main_arg6 : S64x64.Idx → EReal) (at2 k q) := by
  obtain ⟨-, -, -, -, e4, e5, -⟩ := idx_facts1 t
  exact congrArg (V c main_arg6) (Shape.idx_ext₂ (by show win1_2.index t (0 : Fin 2) * 64 + 1 * k.val = k.val; omega)
    (by show win1_2.index t (1 : Fin 2) * 64 + 1 * q.val = q.val; omega))

theorem out_emb1 (t : Fin cfg1.N) (p : Fin 10000) (q : Fin 64) (P : Fin 50000) (hP : P.val = t.val * 10000 + p.val) :
    (((cfg1.win 3).blk t).view.emb (at2 p q) : S50000x64.Idx) = at2 P q := by
  obtain ⟨-, -, -, -, -, -, e6, e7⟩ := idx_facts1 t
  exact Shape.idx_ext₂ (by show win1_3.index t (0 : Fin 2) * 10000 + 1 * p.val = P.val; omega)
    (by show win1_3.index t (1 : Fin 2) * 64 + 1 * q.val = q.val; omega)

abbrev G1 : S50000x64.Idx → EReal :=
  specMM (specRB (V c main_v17 : S50000x64.Idx → EReal) (V c main_v18 : S1x64.Idx → EReal)) (V c main_arg6 : S64x64.Idx → EReal)

theorem flushed1_eq (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz1]
  simp only [View.ld_unit_zero (S := S10000x64) hz1, View.ld_unit_zero (S := S1x64) hz1, View.ld_unit_zero (S := S64x64) hz1]
  funext j
  obtain ⟨p, q, rfl⟩ : ∃ (p : Fin 10000) (q : Fin 64), j = at2 p q := ⟨j 0, j 1, eq_ix2 j⟩
  have hP : t.val * 10000 + p.val < 50000 := by have : t.val < 5 := t.isLt; omega
  refine (pay1_at _ _ _ p q).trans ?_
  rw [View.read_apply, out_emb1 t p q ⟨_, hP⟩ rfl]
  unfold G1 specMM specRB
  refine Finset.sum_congr rfl fun k _ => ?_
  rw [agg_blk1_at V c t p k ⟨_, hP⟩ rfl, bias_blk1_at V c t k, w_blk1_at V c t k q]

-- The five blocks of 10000 rows tile the 50000 rows: row r is in the block of point r / 10000.
theorem cover1 (i : S50000x64.Idx) : ∃ t : Fin cfg1.N, (cfg1.win 3).flush t = true ∧ i ∈ ((cfg1.win 3).blk t).view.set := by
  have h0 := idx2_lt0 i
  obtain ⟨t, ht⟩ : ∃ t : Fin cfg1.N, t.val = (i 0).val / 10000 := ⟨⟨_, by show _ < 5; omega⟩, rfl⟩
  refine ⟨t, flush1_3 t, ?_⟩
  rw [← (out_emb1 t ⟨(i 0).val % 10000, Nat.mod_lt _ (by decide)⟩ (i 1) (i 0) (by show _ = _ + _ % 10000; omega)).trans (eq_ix2 i).symm]
  exact View.emb_mem_set _ _

theorem val1 (V : (c : Dev nD) → (b : Ref sig .tc) → Buf (Elt Ideal) ((c : Thread nD τ).loc b)) (c : Dev nD) : ((dat1 (F := Ideal) V c).arrAt 3 cfg1.N : S50000x64.Idx → EReal) = specMM (specRB (V c main_v17 : S50000x64.Idx → EReal) (V c main_v18 : S1x64.Idx → EReal)) (V c main_arg6 : S64x64.Idx → EReal) :=
  (dat1 (F := Ideal) V c).arrAt_eq_of_cover 3 (G1 V c) (fun t _ => flushed1_eq V c t) cover1

end Cert.KernelIdeal.Hand

end
-- ==== Proof.KI.Val2.lean ====
import proofs.«407319_j12446815224334_1_alg».proof.Proof.KI.Reg2
import proofs.«407319_j12446815224334_1_alg».proof.Proof.KI.PoolFold
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

-- The two roundings are the identity on the extended reals, so the stored block is the product of max (agg + b, 0) by W.
theorem pay2_at (x0 : S10000x64.Idx → EReal) (x1 : S1x64.Idx → EReal) (x2 : S64x64.Idx → EReal) (p : Fin 10000) (q : Fin 64) :
    k2_pay1 (F := Ideal) x0 x1 x2 (at2 p q) = ∑ k : Fin 64, max (x0 (at2 p k) + x1 (at2 (0 : Fin 1) k)) 0 * x2 (at2 k q) := by
  unfold k2_pay1
  simp only [shapeCast_self]
  rw [matmul2_apply dot_S10000x64_S64x64_S10000x64_1_0_0_1_n_n rfl, constant_apply, Ideal.ofBits_zero_f32, zero_add]
  exact Finset.sum_congr rfl fun k _ => congrArg₂ (fun u z => max (x0 (at2 p k) + u) z * x2 (at2 k q))
    (broadcastTo_1b_ab_apply x1 _ p k) Ideal.ofBits_zero_f32

theorem hz2 : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

theorem agg_blk2_at (t : Fin cfg2.N) (p : Fin 10000) (k : Fin 64) (P : Fin 50000) (hP : P.val = t.val * 10000 + p.val) :
    (iblk2 (F := Ideal) V c 0 t : S10000x64.Idx → EReal) (at2 p k) = (V c main_v32 : S50000x64.Idx → EReal) (at2 P k) := by
  obtain ⟨e0, e1, -⟩ := idx_facts2 t
  exact congrArg (V c main_v32) (Shape.idx_ext₂ (by show win2_0.index t (0 : Fin 2) * 10000 + 1 * p.val = P.val; omega)
    (by show win2_0.index t (1 : Fin 2) * 64 + 1 * k.val = k.val; omega))

theorem bias_blk2_at (t : Fin cfg2.N) (k : Fin 64) :
    (iblk2 (F := Ideal) V c 1 t : S1x64.Idx → EReal) (at2 (0 : Fin 1) k) = (V c main_v33 : S1x64.Idx → EReal) (at2 (0 : Fin 1) k) := by
  obtain ⟨-, -, e2, e3, -⟩ := idx_facts2 t
  exact congrArg (V c main_v33) (Shape.idx_ext₂ (by show win2_1.index t (0 : Fin 2) * 1 + 1 * 0 = 0; omega)
    (by show win2_1.index t (1 : Fin 2) * 64 + 1 * k.val = k.val; omega))

theorem w_blk2_at (t : Fin cfg2.N) (k q : Fin 64) :
    (iblk2 (F := Ideal) V c 2 t : S64x64.Idx → EReal) (at2 k q) = (V c main_arg8 : S64x64.Idx → EReal) (at2 k q) := by
  obtain ⟨-, -, -, -, e4, e5, -⟩ := idx_facts2 t
  exact congrArg (V c main_arg8) (Shape.idx_ext₂ (by show win2_2.index t (0 : Fin 2) * 64 + 1 * k.val = k.val; omega)
    (by show win2_2.index t (1 : Fin 2) * 64 + 1 * q.val = q.val; omega))

theorem out_emb2 (t : Fin cfg2.N) (p : Fin 10000) (q : Fin 64) (P : Fin 50000) (hP : P.val = t.val * 10000 + p.val) :
    (((cfg2.win 3).blk t).view.emb (at2 p q) : S50000x64.Idx) = at2 P q := by
  obtain ⟨-, -, -, -, -, -, e6, e7⟩ := idx_facts2 t
  exact Shape.idx_ext₂ (by show win2_3.index t (0 : Fin 2) * 10000 + 1 * p.val = P.val; omega)
    (by show win2_3.index t (1 : Fin 2) * 64 + 1 * q.val = q.val; omega)

abbrev G2 : S50000x64.Idx → EReal :=
  specMM (specRB (V c main_v32 : S50000x64.Idx → EReal) (V c main_v33 : S1x64.Idx → EReal)) (V c main_arg8 : S64x64.Idx → EReal)

theorem flushed2_eq (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S10000x64) hz2, View.ld_unit_zero (S := S1x64) hz2, View.ld_unit_zero (S := S64x64) hz2]
  funext j
  obtain ⟨p, q, rfl⟩ : ∃ (p : Fin 10000) (q : Fin 64), j = at2 p q := ⟨j 0, j 1, eq_ix2 j⟩
  have hP : t.val * 10000 + p.val < 50000 := by have : t.val < 5 := t.isLt; omega
  refine (pay2_at _ _ _ p q).trans ?_
  rw [View.read_apply, out_emb2 t p q ⟨_, hP⟩ rfl]
  unfold G2 specMM specRB
  refine Finset.sum_congr rfl fun k _ => ?_
  rw [agg_blk2_at V c t p k ⟨_, hP⟩ rfl, bias_blk2_at V c t k, w_blk2_at V c t k q]

-- The five blocks of 10000 rows tile the 50000 rows: row r is in the block of point r / 10000.
theorem cover2 (i : S50000x64.Idx) : ∃ t : Fin cfg2.N, (cfg2.win 3).flush t = true ∧ i ∈ ((cfg2.win 3).blk t).view.set := by
  have h0 := idx2_lt0 i
  obtain ⟨t, ht⟩ : ∃ t : Fin cfg2.N, t.val = (i 0).val / 10000 := ⟨⟨_, by show _ < 5; omega⟩, rfl⟩
  refine ⟨t, flush2_3 t, ?_⟩
  rw [← (out_emb2 t ⟨(i 0).val % 10000, Nat.mod_lt _ (by decide)⟩ (i 1) (i 0) (by show _ = _ + _ % 10000; omega)).trans (eq_ix2 i).symm]
  exact View.emb_mem_set _ _

theorem val2 (V : (c : Dev nD) → (b : Ref sig .tc) → Buf (Elt Ideal) ((c : Thread nD τ).loc b)) (c : Dev nD) : ((dat2 (F := Ideal) V c).arrAt 3 cfg2.N : S50000x64.Idx → EReal) = specMM (specRB (V c main_v32 : S50000x64.Idx → EReal) (V c main_v33 : S1x64.Idx → EReal)) (V c main_arg8 : S64x64.Idx → EReal) :=
  (dat2 (F := Ideal) V c).arrAt_eq_of_cover 3 (G2 V c) (fun t _ => flushed2_eq V c t) cover2

end Cert.KernelIdeal.Hand

end
-- ==== Proof.KI.Val3.lean ====
import proofs.«407319_j12446815224334_1_alg».proof.Proof.KI.Reg3
import proofs.«407319_j12446815224334_1_alg».proof.Proof.KI.Val0

noncomputable section

namespace Cert.KernelIdeal.Hand

open Cert.KernelIdeal Cert.KernelIdeal.Gen
open Idealize.ShloMosaic Idealize.ShloMosaic.TcCoe Idealize.ShloMosaic.ValueIdx

theorem pay3_eq (x0 : Vec Ideal S10000x64 .f32) (x1 : Vec Ideal S1x64 .f32) : k3_pay1 x0 x1 = specRB x0 x1 := by
  unfold k3_pay1
  simp only [shapeCast_self]
  rw [show Scalar.ofBits (F := Ideal) .f32 0x00000000#32 = (0 : EReal) from Ideal.ofBits_zero_f32]
  exact funext fun i => congrArg (fun z => max (x0 i + z) 0) (bias_apply x1 _ i)

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The five blocks of 10000 rows cover the 50000 rows: row r is in block r / 10000. -/
theorem cover3 (i : S50000x64.Idx) : ∃ t : Fin cfg3.N, (cfg3.win 2).flush t = true ∧ i ∈ ((cfg3.win 2).blk t).view.set := by
  have hi0 := idx2_lt0 i
  have hi1 := idx2_lt1 i
  let t : Fin cfg3.N := ⟨(i 0).val / 10000, by show _ < grid3.N; rw [N_3]; omega⟩
  obtain ⟨-, -, -, -, e4, e5⟩ := idx3 t
  have ht : t.val = (i 0).val / 10000 := rfl
  refine ⟨t, flush3_2 t, ?_⟩
  show i ∈ ((View.whole main_v49).slice (win3_2.rect t)).set
  rw [View.set_slice_whole, Rect.mem_set_unit]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- Adding the bias row and clamping act row by row, so they commute with taking a block of rows. -/
theorem flushed3_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal)
      (specRB (V c main_v47 : S50000x64.Idx → EReal) (V c main_v48 : S1x64.Idx → EReal)) := by
  show (cfg3.win 2).cut (grid3.coords t) ((dat3 V c).after 2 t) = _
  rw [after3_2]
  unfold out3_2
  rw [View.canon_unit_zero zeros2]
  simp only [ld0]
  rw [pay3_eq]
  obtain ⟨e0, e1, e2, e3, e4, e5⟩ := idx3 t
  funext j
  refine congrArg₂ (fun a b : EReal => max (a + b) 0)
    (congrArg (V c main_v47 : S50000x64.Idx → EReal) (Shape.idx_ext₂ ?_ ?_)) (congrArg (V c main_v48 : S1x64.Idx → EReal) (Shape.idx_ext₂ ?_ ?_))
  · show win3_0.index t (0 : Fin 2) * 10000 + 1 * (j 0).val = win3_2.index t (0 : Fin 2) * 10000 + 1 * (j 0).val; omega
  · show win3_0.index t (1 : Fin 2) * 64 + 1 * (j 1).val = win3_2.index t (1 : Fin 2) * 64 + 1 * (j 1).val; omega
  · show win3_1.index t (0 : Fin 2) * 1 + 1 * 0 = 0; omega
  · show win3_1.index t (1 : Fin 2) * 64 + 1 * (j 1).val = win3_2.index t (1 : Fin 2) * 64 + 1 * (j 1).val; omega

theorem val3 (V : (c : Dev nD) → (b : Ref sig .tc) → Buf (Elt Ideal) ((c : Thread nD τ).loc b)) (c : Dev nD) :
    ((dat3 (F := Ideal) V c).arrAt 2 cfg3.N : S50000x64.Idx → EReal)
      = specRB (V c main_v47 : S50000x64.Idx → EReal) (V c main_v48 : S1x64.Idx → EReal) :=
  (dat3 V c).arrAt_eq_of_cover 2 _ (fun t _ => flushed3_eq V c t) cover3

end Cert.KernelIdeal.Hand

end
-- ==== Proof.KI.Val4.lean ====
import proofs.«407319_j12446815224334_1_alg».proof.Proof.KI.Reg4
import proofs.«407319_j12446815224334_1_alg».proof.Proof.KI.PoolFold

noncomputable section

namespace Cert.KernelIdeal.Hand

open Cert.KernelIdeal Cert.KernelIdeal.Gen
open Idealize.ShloMosaic Idealize.ShloMosaic.TcCoe Idealize.ShloMosaic.ValueIdx

theorem ofBits_one_f32 : Ideal.ofBits .f32 0x3F800000#32 = 1 := by
  simp [Ideal.ofBits, Ideal.ieee, -EReal.coe_mul]; norm_num

theorem pay1_apply (i : S64x64.Idx) : (k4_pay1 (F := Ideal)) i = 0 := by
  unfold k4_pay1
  rw [shapeCast_self]
  exact Ideal.ofBits_zero_f32

theorem pay2_apply (i : S64x1.Idx) : (k4_pay2 (F := Ideal)) i = 0 := by
  unfold k4_pay2
  rw [shapeCast_self]
  exact Ideal.ofBits_zero_f32

-- One step of the 64 × 64 accumulator: the roundings are the identity, so it adds the block's sum of products.
theorem pay4_apply (v3 : Vec Ideal S64x5120 .f32) (v5 : Vec Ideal S5120x64 .f32) (v9 : Vec Ideal S64x64 .f32) (g j : Fin 64) :
    k4_pay4 (F := Ideal) v3 v5 v9 (at2 g j) = v9 (at2 g j) + ∑ k : Fin 5120, v3 (at2 g k) * v5 (at2 k j) := by
  unfold k4_pay4 k4_pay3
  simp only [shapeCast_self]
  rw [addf_apply, matmul2_apply dot_S64x5120_S5120x64_S64x64_1_0_0_1_n_n rfl, constant_apply, Ideal.ofBits_zero_f32, zero_add]
  rfl

theorem pay5_apply (v3 : Vec Ideal S64x5120 .f32) (v15 : Vec Ideal S64x1 .f32) (g : Fin 64) (z : Fin 1) :
    k4_pay5 (F := Ideal) v3 v15 (at2 g z) = v15 (at2 g z) + ∑ k : Fin 5120, v3 (at2 g k) := by
  unfold k4_pay5 k4_pay3
  simp only [shapeCast_self]
  rw [addf_apply, column_of_vector_apply, pool_rowsum_apply]

theorem pay6_apply (v25 : Vec Ideal S64x64 .f32) (v26 : Vec Ideal S64x1 .f32) (g j : Fin 64) :
    k4_pay6 (F := Ideal) v25 v26 (at2 g j) = Ideal.div (v25 (at2 g j)) (max (v26 (at2 g (0 : Fin 1))) 1) := by
  unfold k4_pay6
  rw [divf_apply, column_broadcast_apply, maximumf_apply, broadcast_apply]
  show Ideal.div _ (max _ (Ideal.ofBits .f32 0x3F800000#32)) = _
  rw [ofBits_one_f32]

theorem idx_facts4 : ∀ t : Fin cfg4.N, win4_0.index t (0 : Fin 2) = 0 ∧ win4_0.index t (1 : Fin 2) = t.val
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

variable (V : (c : Dev nD) → (b : Ref sig .tc) → Buf (Elt Ideal) ((c : Thread nD τ).loc b)) (c : Dev nD)

theorem ohblk_apply (t : Fin cfg4.N) (g : Fin 64) (q : Fin 5120) :
    ohblk (F := Ideal) V c t (at2 g q) = (V c main_v59 : S64x51200.Idx → EReal) (at2 g (colOf t q)) := by
  obtain ⟨e0, e1, -⟩ := idx_facts4 t
  exact congrArg (V c main_v59) (Shape.idx_ext₂ (by show win4_0.index t (0 : Fin 2) * 64 + 1 * g.val = g.val; omega)
    (by show win4_0.index t (1 : Fin 2) * 5120 + 1 * q.val = q.val + 5120 * t.val; omega))

theorem hblk_apply (t : Fin cfg4.N) (q : Fin 5120) (j : Fin 64) :
    hblk (F := Ideal) V c t (at2 q j) = (V c main_v50 : S51200x64.Idx → EReal) (at2 (colOf t q) j) := by
  obtain ⟨-, -, e2, e3, -⟩ := idx_facts4 t
  exact congrArg (V c main_v50) (Shape.idx_ext₂ (by show win4_1.index t (0 : Fin 2) * 5120 + 1 * q.val = q.val + 5120 * t.val; omega)
    (by show win4_1.index t (1 : Fin 2) * 64 + 1 * j.val = j.val; omega))

-- Each accumulator starts at its first block's sum and adds one block's sum per point, so after the tenth point it holds the sum over the whole axis.
theorem result_last (h9 : 9 < cfg4.N) :
    k4_pay6 (F := Ideal) (acc0At V c 9 h9) (acc1At V c 9 h9)
      = specPool (V c main_v59 : S64x51200.Idx → EReal) (V c main_v50 : S51200x64.Idx → EReal) := by
  funext i
  obtain ⟨g, j, rfl⟩ : ∃ g j, i = at2 g j := ⟨i 0, i 1, eq_ix2 i⟩
  rw [pay6_apply]
  refine congrArg₂ Ideal.div ?_ (congrArg (max · 1) ?_) <;> rw [sum_long_eq_sum_blocks]
  · refine run_last_eq_sum (fun u : Fin 10 => acc0At V c u.val u.isLt (at2 g j)) _ ?_ fun u h => ?_
    · show k4_pay4 (F := Ideal) _ _ (k4_pay1 (F := Ideal)) (at2 g j) = _
      rw [pay4_apply, pay1_apply, zero_add]
      exact Finset.sum_congr rfl fun q _ => congrArg₂ (· * ·) (ohblk_apply V c _ g q) (hblk_apply V c _ q j)
    · show k4_pay4 _ _ (acc0At V c u _) (at2 g j) = acc0At V c u _ (at2 g j) + _
      rw [pay4_apply]
      exact congrArg _ (Finset.sum_congr rfl fun q _ => congrArg₂ (· * ·) (ohblk_apply V c _ g q) (hblk_apply V c _ q j))
  · refine run_last_eq_sum (fun u : Fin 10 => acc1At V c u.val u.isLt (at2 g 0)) _ ?_ fun u h => ?_
    · show k4_pay5 (F := Ideal) _ (k4_pay2 (F := Ideal)) (at2 g 0) = _
      rw [pay5_apply, pay2_apply, zero_add]
      exact Finset.sum_congr rfl fun q _ => ohblk_apply V c _ g q
    · show k4_pay5 _ (acc1At V c u _) (at2 g 0) = acc1At V c u _ (at2 g 0) + _
      rw [pay5_apply]
      exact congrArg _ (Finset.sum_congr rfl fun q _ => ohblk_apply V c _ g q)

theorem emb4_2 (t : Fin cfg4.N) (y : S64x64.Idx) : ((cfg4.win 2).blk t).view.emb y = y := by
  obtain ⟨-, -, -, -, e4, e5⟩ := idx_facts4 t
  exact Shape.idx_ext₂ (by show win4_2.index t (0 : Fin 2) * 64 + 1 * (y 0).val = (y 0).val; omega)
    (by show win4_2.index t (1 : Fin 2) * 64 + 1 * (y 1).val = (y 1).val; omega)

theorem mem_blk4_2 (t : Fin cfg4.N) (i : S64x64.Idx) : i ∈ ((cfg4.win 2).blk t).view.set := by
  rw [← emb4_2 t i]; exact View.emb_mem_set _ _

theorem read_blk4_2 (t : Fin cfg4.N) (G : S64x64.Idx → EReal) :
    (cfg4.win 2).cut (grid4.coords t) G = ((cfg4.win 2).blk t).view.read (Elt Ideal) G :=
  funext fun y => congrArg G (emb4_2 t y).symm

theorem flushed4_2_eq (t : Fin cfg4.N) (hf : (cfg4.win 2).flush t = true) :
    (dat4 (F := Ideal) V c).flushed 2 t = ((cfg4.win 2).blk t).view.read (Elt Ideal)
      (specPool (V c main_v59 : S64x51200.Idx → EReal) (V c main_v50 : S51200x64.Idx → EReal)) := by
  obtain rfl : t = ⟨9, by decide⟩ := Fin.ext (by have := (flush4_2 t).mp hf; have : t.val < 10 := t.isLt; show t.val = 9; omega)
  show (cfg4.win 2).cut (grid4.coords _) ((dat4 (F := Ideal) V c).after 2 _) = _
  rw [after4_2, result_last]
  exact read_blk4_2 _ _

theorem val4 (V : (c : Dev nD) → (b : Ref sig .tc) → Buf (Elt Ideal) ((c : Thread nD τ).loc b)) (c : Dev nD) :
    ((dat4 (F := Ideal) V c).arrAt 2 cfg4.N : S64x64.Idx → EReal)
      = specPool (V c main_v59 : S64x51200.Idx → EReal) (V c main_v50 : S51200x64.Idx → EReal) :=
  (dat4 (F := Ideal) V c).arrAt_eq_of_cover 2 _ (flushed4_2_eq V c)
    (fun i => ⟨⟨9, by decide⟩, (flush4_2 _).mpr rfl, mem_blk4_2 _ i⟩)

end Cert.KernelIdeal.Hand

end
-- ==== Proof.KI.Val5.lean ====
import proofs.«407319_j12446815224334_1_alg».proof.Proof.KI.Reg5
import proofs.«407319_j12446815224334_1_alg».proof.Proof.KI.Val0

noncomputable section

namespace Cert.KernelIdeal.Hand

open Cert.KernelIdeal Cert.KernelIdeal.Gen
open Idealize.ShloMosaic Idealize.ShloMosaic.TcCoe Idealize.ShloMosaic.ValueIdx

/-- A product plus a repeated bias row is the affine layer, entry by entry. -/
theorem aff_apply {m k n : Nat} {D : DotDims ⟨2, ![m, k]⟩ ⟨2, ![k, n]⟩ ⟨2, ![m, n]⟩} (hD : D = .plain m k n)
    (x : FVec Ideal ⟨2, ![m, k]⟩ .f32) (w : FVec Ideal ⟨2, ![k, n]⟩ .f32) (b : FVec Ideal ⟨2, ![1, n]⟩ .f32) (hb) :
    addf (matmul D none (truncf .bf16 x bitsLt_bf16_f32) (truncf .bf16 w bitsLt_bf16_f32) (constant (F := Ideal) _ .f32 0x00000000#32))
      (broadcastTo _ b hb) = specAff x w b := by
  rw [mm_apply hD]
  exact funext fun i => congrArg (specMM x w i + ·) (bias_apply b hb i)

theorem pay5_eq (x0 : Vec Ideal S64x64 .f32) (x1 : Vec Ideal S64x32 .f32) (x2 : Vec Ideal S1x32 .f32) (x3 : Vec Ideal S32x16 .f32)
    (x4 : Vec Ideal S1x16 .f32) (x5 : Vec Ideal S16x1 .f32) (x6 : Vec Ideal S1x1 .f32) :
    k5_pay1 x0 x1 x2 x3 x4 x5 x6 = specMLP x0 x1 x2 x3 x4 x5 x6 := by
  unfold k5_pay1
  dsimp only
  simp only [shapeCast_self]
  rw [aff_apply, aff_apply, aff_apply, show Scalar.ofBits (F := Ideal) .f32 0x00000000#32 = (0 : EReal) from Ideal.ofBits_zero_f32] <;> rfl

theorem idx5 : ∀ (t : Fin cfg5.N) (w : Fin cfg5.W) (a), (cfg5.win w).index t a = 0 :=
  (by decide +kernel : ∀ t : Fin grid5.N, _)

/-- Each block is its whole array: an index of the block is the same index of the array. -/
theorem emb5 (t : Fin cfg5.N) (w : Fin cfg5.W) (y) (a) : (((cfg5.win w).rect t).emb y a : ℕ) = y a :=
  (cfg5.win w).rect_emb_val_of_index_zero t a (idx5 t w a) y

variable (V : (c : Dev nD) → (b : Ref sig .tc) → Buf (Elt Ideal) ((c : Thread nD τ).loc b)) (c : Dev nD) (t : Fin cfg5.N)

theorem in5_0 : (iblk5 (F := Ideal) V c 0 t : S64x64.Idx → EReal) = (V c main_v60 : S64x64.Idx → EReal) := read_fix _ (emb5 t 0)
theorem in5_1 : (iblk5 (F := Ideal) V c 1 t : S64x32.Idx → EReal) = (V c main_arg10 : S64x32.Idx → EReal) := read_fix _ (emb5 t 1)
theorem in5_2 : (iblk5 (F := Ideal) V c 2 t : S1x32.Idx → EReal) = (V c main_v61 : S1x32.Idx → EReal) := read_fix _ (emb5 t 2)
theorem in5_3 : (iblk5 (F := Ideal) V c 3 t : S32x16.Idx → EReal) = (V c main_arg12 : S32x16.Idx → EReal) := read_fix _ (emb5 t 3)
theorem in5_4 : (iblk5 (F := Ideal) V c 4 t : S1x16.Idx → EReal) = (V c main_v62 : S1x16.Idx → EReal) := read_fix _ (emb5 t 4)
theorem in5_5 : (iblk5 (F := Ideal) V c 5 t : S16x1.Idx → EReal) = (V c main_arg14 : S16x1.Idx → EReal) := read_fix _ (emb5 t 5)
theorem in5_6 : (iblk5 (F := Ideal) V c 6 t : S1x1.Idx → EReal) = (V c main_v63 : S1x1.Idx → EReal) := read_fix _ (emb5 t 6)

theorem out5 (i : S64x1.Idx) : (((cfg5.win 7).blk t).view.emb i : S64x1.Idx) = i :=
  Shape.idx_ext₂ (emb5 t 7 i 0) (emb5 t 7 i 1)

theorem mem5 (i : S64x1.Idx) : i ∈ ((cfg5.win 7).blk t).view.set := out5 t i ▸ View.emb_mem_set _ i

abbrev mlp5 : S64x1.Idx → EReal := specMLP (V c main_v60 : S64x64.Idx → EReal) (V c main_arg10 : S64x32.Idx → EReal) (V c main_v61 : S1x32.Idx → EReal) (V c main_arg12 : S32x16.Idx → EReal) (V c main_v62 : S1x16.Idx → EReal) (V c main_arg14 : S16x1.Idx → EReal) (V c main_v63 : S1x1.Idx → EReal)

/-- Every block is its whole array, so the head of the specification of the blocks is that of the arrays. -/
theorem flushed5_eq : (dat5 (F := Ideal) V c).flushed 7 t = ((cfg5.win 7).blk t).view.read (Elt Ideal) (mlp5 V c) := by
  show (cfg5.win 7).cut (grid5.coords t) ((dat5 (F := Ideal) V c).after 7 t) = _
  rw [after5_7]
  unfold out5_7
  rw [View.canon_unit_zero zeros2]
  simp only [ld0]
  rw [pay5_eq]
  simp only [in5_0, in5_1, in5_2, in5_3, in5_4, in5_5, in5_6]
  exact (read_fix _ (emb5 t 7)).symm

theorem val5 (V : (c : Dev nD) → (b : Ref sig .tc) → Buf (Elt Ideal) ((c : Thread nD τ).loc b)) (c : Dev nD) : ((dat5 (F := Ideal) V c).arrAt 7 cfg5.N : S64x1.Idx → EReal) = specMLP (V c main_v60 : S64x64.Idx → EReal) (V c main_arg10 : S64x32.Idx → EReal) (V c main_v61 : S1x32.Idx → EReal) (V c main_arg12 : S32x16.Idx → EReal) (V c main_v62 : S1x16.Idx → EReal) (V c main_arg14 : S16x1.Idx → EReal) (V c main_v63 : S1x1.Idx → EReal) :=
  (dat5 (F := Ideal) V c).arrAt_eq_of_cover 7 _ (fun t _ => flushed5_eq V c t) fun i => ⟨⟨0, by decide⟩, flush5_7 _, mem5 _ i⟩

end Cert.KernelIdeal.Hand

end
-- ==== Proof.RefSpec.lean ====
import proofs.«407319_j12446815224334_1_alg».proof.Proof.KI.Spec
import Idealize.ShloMosaic.Lib.StackMember
import Idealize.ShloMosaic.Lib.StableHlo.Predicate
import Idealize.ShloMosaic.Lib.ValueLayout

noncomputable section

namespace Cert.RefSpec

open Idealize.ShloMosaic Idealize.ShloMosaic.ValueIdx Cert.KernelIdeal.Hand

variable {m k n : ℕ}

theorem ofFin_eq_ix1 (q : Fin n) : Shape.Idx.ofFin q = ix1 q := by
  funext a; obtain rfl : a = 0 := Subsingleton.elim _ _; rfl

-- entry (a, b) of a plain product is the sum over c of x (a, c) · w (c, b)
theorem dot_plain (D : DotDims ⟨2, ![m, k]⟩ ⟨2, ![k, n]⟩ ⟨2, ![m, n]⟩) (hD : D = DotDims.plain m k n)
    (x : FVec Ideal ⟨2, ![m, k]⟩ .f32) (w : FVec Ideal ⟨2, ![k, n]⟩ .f32) :
    Host.dotGeneral D none x w = specMM x w := by
  subst hD
  funext i
  obtain ⟨a, b, rfl⟩ : ∃ a b, i = ix2 a b := ⟨i 0, i 1, eq_ix2 i⟩
  exact StackMember.dotGeneral_plain_apply none x w a b

-- a vector laid along every row reads, at (p, q), entry (0, q) of the vector reshaped to one row
theorem bcast_row {α : Type} (h₁ : (⟨1, ![k]⟩ : Shape).BroadcastsInDim ⟨2, ![1, k]⟩ ![1])
    (h₂ : (⟨2, ![1, k]⟩ : Shape).BroadcastsInDim ⟨2, ![m, k]⟩ ![0, 1]) (h : (⟨1, ![k]⟩ : Shape).ShapeCasts ⟨2, ![1, k]⟩)
    (b : (⟨1, ![k]⟩ : Shape).Idx → α) :
    broadcastInDim ⟨2, ![m, k]⟩ ![0, 1] h₂ (broadcastInDim ⟨2, ![1, k]⟩ ![1] h₁ b)
      = fun i => shapeCast ⟨2, ![1, k]⟩ b h (at2 (0 : Fin 1) (c2 i)) := by
  funext i
  obtain ⟨p, q, rfl⟩ : ∃ p q, i = ix2 p q := ⟨i 0, i 1, eq_ix2 i⟩
  exact (StableHlo.Predicate.bcast_cols h₁ h₂ b p q).trans
    ((congrArg b (ofFin_eq_ix1 q)).trans (shapeCast_a_1a_apply b h 0 q).symm)

-- the maximum with the zero array clamps each entry below at zero
theorem clamp0 {s : Shape} (h : (⟨0, ![]⟩ : Shape).BroadcastsInDim s ![]) (y : FVec Ideal s .f32) :
    maximumf y (broadcastInDim s ![] h (constant (F := Ideal) ⟨0, ![]⟩ .f32 0x00000000#32)) = fun i => max (y i : EReal) 0 :=
  funext fun i => congrArg (max (y i)) Ideal.ofBits_zero_f32

-- a bias row added to every row, then the clamp at zero
theorem relu_row {h₁ : (⟨1, ![k]⟩ : Shape).BroadcastsInDim ⟨2, ![1, k]⟩ ![1]} {h₂ : (⟨2, ![1, k]⟩ : Shape).BroadcastsInDim ⟨2, ![m, k]⟩ ![0, 1]}
    {h₀ : (⟨0, ![]⟩ : Shape).BroadcastsInDim ⟨2, ![m, k]⟩ ![]} (h : (⟨1, ![k]⟩ : Shape).ShapeCasts ⟨2, ![1, k]⟩)
    (y : FVec Ideal ⟨2, ![m, k]⟩ .f32) (b : FVec Ideal ⟨1, ![k]⟩ .f32) :
    maximumf (addf y (broadcastInDim ⟨2, ![m, k]⟩ ![0, 1] h₂ (broadcastInDim ⟨2, ![1, k]⟩ ![1] h₁ b)))
        (broadcastInDim ⟨2, ![m, k]⟩ ![] h₀ (constant (F := Ideal) ⟨0, ![]⟩ .f32 0x00000000#32))
      = specRB y (shapeCast ⟨2, ![1, k]⟩ b h) := by
  rw [clamp0, bcast_row h₁ h₂ h]; rfl

-- a plain product plus a bias row is the affine layer
theorem aff (D : DotDims ⟨2, ![m, k]⟩ ⟨2, ![k, n]⟩ ⟨2, ![m, n]⟩) (hD : D = DotDims.plain m k n)
    {h₁ : (⟨1, ![n]⟩ : Shape).BroadcastsInDim ⟨2, ![1, n]⟩ ![1]} {h₂ : (⟨2, ![1, n]⟩ : Shape).BroadcastsInDim ⟨2, ![m, n]⟩ ![0, 1]}
    (h : (⟨1, ![n]⟩ : Shape).ShapeCasts ⟨2, ![1, n]⟩)
    (x : FVec Ideal ⟨2, ![m, k]⟩ .f32) (w : FVec Ideal ⟨2, ![k, n]⟩ .f32) (b : FVec Ideal ⟨1, ![n]⟩ .f32) :
    addf (Host.dotGeneral D none x w) (broadcastInDim ⟨2, ![m, n]⟩ ![0, 1] h₂ (broadcastInDim ⟨2, ![1, n]⟩ ![1] h₁ b))
      = specAff x w (shapeCast ⟨2, ![1, n]⟩ b h) := by
  rw [dot_plain D hD, bcast_row h₁ h₂ h]; rfl

end Cert.RefSpec

end
-- ==== Proof.PoolMath.lean ====
import proofs.«407319_j12446815224334_1_alg».proof.Proof.KI.KRes
import proofs.«407319_j12446815224334_1_alg».proof.Proof.RefSpec
import proofs.«407319_j12446815224334_1_alg».proof.ReferenceIdeal
import Idealize.ShloMosaic.Lib.ValueIdxRank1
import Idealize.ShloMosaic.Lib.StableHlo.Predicate
import Idealize.ShloMosaic.Lib.IdealHost
import Idealize.ShloMosaic.Lib.Pipeline.Value
import Idealize.ShloMosaic.Lib.KernelVsHost
import Idealize.ShloMosaic.Lib.FinSumWindow

noncomputable section

namespace Cert.PoolMath

open Idealize.ShloMosaic Idealize.ShloMosaic.ValueIdx Cert.KernelIdeal Cert.KernelIdeal.Hand Cert.KernelIdeal.Facts₀ Cert.RefSpec

variable [Cert.ReferenceIdeal.Facts₀] (batch : IVec S50000 32) (h : S50000x64.Idx → EReal) (g j : Fin 64)

abbrev bpK : IVec S51200 32 :=
  concatenate S51200 0 [⟨S50000, batch⟩, ⟨S1200, broadcastInDim S1200 ![] bcast_S_S1200 (constantI S_ 32 4294967295#32)⟩] concatenates_S50000_S1200_S51200_d0

abbrev D2 := Cert.ReferenceIdeal.scatter_S64x64_S50000x1_S50000x64_1_0_0_1
abbrev D1 := Cert.ReferenceIdeal.scatter_S64_S50000x1_S50000_n_0_0_1
abbrev idxR : IVec Cert.ReferenceIdeal.S50000x1 32 :=
  broadcastInDim Cert.ReferenceIdeal.S50000x1 ![0] Cert.ReferenceIdeal.Facts₀.bcast_S50000_S50000x1_0 batch

-- an update lands on i exactly when its start plus its window coordinate is i on every axis
theorem resultIdx_iff {s si u : Shape} {w : ℕ} (d : ScatterDims s si u) (v : u.Idx) (idx : IVec si w) (i : s.Idx) :
    d.resultIdx? v idx = some i ↔ ∀ a, d.start v idx a + d.window v a = ((i a).val : ℤ) := by
  unfold ScatterDims.resultIdx?
  split
  · rename_i hh
    rw [Option.some.injEq]
    exact ⟨by rintro rfl a; exact (Int.toNat_of_nonneg (hh a).1).symm,
      fun e => funext fun a => Fin.ext (by show (d.start v idx a + d.window v a).toNat = (i a).val; rw [e a]; rfl)⟩
  · rename_i hh
    exact ⟨nofun, fun e => absurd (fun a => by rw [e a]; exact ⟨Int.natCast_nonneg _, Int.ofNat_lt.2 (i a).isLt⟩) hh⟩

theorem start2_0 (u : S50000x64.Idx) (idx : IVec Cert.ReferenceIdeal.S50000x1 32) :
    D2.start u idx 0 = (idx (ix2 (u 0) 0)).toInt := by
  unfold ScatterDims.start
  rw [dif_pos (show (0 : Fin 2) ∈ D2.scatterDimsToOperandDims from List.mem_singleton.mpr rfl)]
  congr 2
  funext b; refine Fin.ext ?_
  match b with
  | ⟨0, _⟩ => rfl
  | ⟨1, _⟩ => rfl

theorem start2_1 (u : S50000x64.Idx) (idx : IVec Cert.ReferenceIdeal.S50000x1 32) : D2.start u idx 1 = 0 := by
  unfold ScatterDims.start
  rw [dif_neg (show (1 : Fin 2) ∉ D2.scatterDimsToOperandDims from (by decide : (1 : Fin 2) ∉ ([0] : List (Fin 2))))]

theorem window2_0 (u : S50000x64.Idx) : D2.window u 0 = 0 := by
  unfold ScatterDims.window
  rw [dif_neg (show (0 : Fin 2) ∉ D2.sKept from (by decide : (0 : Fin 2) ∉ ([1] : List (Fin 2))))]

theorem window2_1 (u : S50000x64.Idx) : D2.window u 1 = (u 1).val := by
  unfold ScatterDims.window
  rw [dif_pos (show (1 : Fin 2) ∈ D2.sKept from (by decide : (1 : Fin 2) ∈ ([1] : List (Fin 2))))]
  rfl

-- update (n, c) lands on (g, c') exactly when the signed word at n is g and c = c'
theorem lands2 (u : S50000x64.Idx) (idx : IVec Cert.ReferenceIdeal.S50000x1 32) (i : S64x64.Idx) :
    D2.resultIdx? u idx = some i ↔ (idx (ix2 (u 0) 0)).toInt = ((i 0).val : ℤ) ∧ u 1 = i 1 := by
  rw [resultIdx_iff, Fin.forall_fin_two, start2_0, window2_0, start2_1, window2_1, Nat.cast_zero, add_zero, zero_add,
    Nat.cast_inj]
  exact Iff.rfl.and Fin.val_inj

theorem start1_0 (u : S50000.Idx) (idx : IVec Cert.ReferenceIdeal.S50000x1 32) :
    D1.start u idx 0 = (idx (ix2 (u 0) 0)).toInt := by
  unfold ScatterDims.start
  rw [dif_pos (show (0 : Fin 1) ∈ D1.scatterDimsToOperandDims from List.mem_singleton.mpr rfl)]
  congr 2
  funext b; refine Fin.ext ?_
  match b with
  | ⟨0, _⟩ => rfl
  | ⟨1, _⟩ => rfl

theorem window1_0 (u : S50000.Idx) : D1.window u 0 = 0 := by
  unfold ScatterDims.window
  rw [dif_neg (show (0 : Fin 1) ∉ D1.sKept from (by decide : (0 : Fin 1) ∉ ([] : List (Fin 1))))]

-- update n lands on g exactly when the signed word at n is g
theorem lands1 (u : S50000.Idx) (idx : IVec Cert.ReferenceIdeal.S50000x1 32) (i : S64.Idx) :
    D1.resultIdx? u idx = some i ↔ (idx (ix2 (u 0) 0)).toInt = ((i 0).val : ℤ) := by
  rw [resultIdx_iff, Fin.forall_fin_one, start1_0, window1_0, Nat.cast_zero, add_zero]

theorem bpK_apply (q : Fin 51200) :
    bpK batch (ix1 q) = if hq : q.val < 50000 then batch (ix1 ⟨q.val, hq⟩) else 4294967295#32 := by
  split
  · rename_i hq
    exact concatenate_pair_apply_left (t := S51200) (s₁ := S50000) (s₂ := S1200) 0 batch _ concatenates_S50000_S1200_S51200_d0
      (ix1 q) rfl (ix1 ⟨q.val, hq⟩) (fun b => by obtain rfl : b = 0 := Subsingleton.elim _ _; rfl)
  · rename_i hq
    have hq' : q.val - 50000 < 1200 := by have := q.isLt; omega
    refine (concatenate_pair_apply_right (t := S51200) (s₁ := S50000) (s₂ := S1200) 0 batch _ concatenates_S50000_S1200_S51200_d0
      (ix1 q) rfl rfl (ix1 ⟨q.val - 50000, hq'⟩) (fun b hb => absurd (Subsingleton.elim _ _) hb) ?_).trans rfl
    show q.val - 50000 + 50000 = q.val; omega

-- entry (g, n) of the membership matrix is one when the padded group number at n is the word g, else zero
theorem oh_apply (q : Fin 51200) :
    onehotT batch (at2 g q) = if bpK batch (ix1 q) = BitVec.ofNat 32 g.val then 1 else 0 := by
  show (((IntOp.cmpi .eq
      (broadcastInDim S64x51200 ![0, 1] bcast_S1x51200_S64x51200_0_1
        (broadcastInDim S1x51200 ![1] bcast_S51200_S1x51200_1 (bpK batch)) (StableHlo.Predicate.ij g q))
      (broadcastInDim S64x51200 ![0, 1] bcast_S64x1_S64x51200_0_1
        (broadcastInDim S64x1 ![0] bcast_S64_S64x1_0 (iotaInDim S64 32 0)) (StableHlo.Predicate.ij g q))).toNat : ℝ) : EReal) = _
  rw [StableHlo.Predicate.bcast_cols, StableHlo.Predicate.bcast_rows, StableHlo.Predicate.iota_apply, ofFin_eq_ix1]
  by_cases e : bpK batch (ix1 q) = BitVec.ofNat 32 g.val
  · rw [if_pos e, StableHlo.Predicate.cmpi_eq_iff.2 e]; simp
  · rw [if_neg e, eq_zero_of_ne_one (mt StableHlo.Predicate.cmpi_eq_iff.1 e)]; simp

theorem hp_apply (n : Fin 50000) : padRows h (at2 (⟨n.val, lt_trans n.isLt (by decide)⟩ : Fin 51200) j) = h (at2 n j) :=
  pad_apply_of_inside (s := S50000x64) (t := S51200x64) ![0, 0] ![1200, 0] ![0, 0] h
    (sitofp (F := Ideal) .f32 (constantI S_ 32 0#32)) pads_S50000x64_S51200x64_012000_000 h_S_ _ _ fun a => by
      match a with
      | ⟨0, _⟩ => show n.val = 0 + n.val * (0 + 1); omega
      | ⟨1, _⟩ => show j.val = 0 + j.val * (0 + 1); omega

theorem ofNat_ne_allOnes : (4294967295#32 : BitVec 32) ≠ BitVec.ofNat 32 g.val := by
  intro e
  have := congrArg BitVec.toNat e
  simp at this
  omega

-- the padding rows belong to no group, so a sum weighted by row g of the membership matrix runs over the rows of group g
theorem oh_sum (f : Fin 51200 → EReal) (f' : Fin 50000 → EReal)
    (hf : ∀ n : Fin 50000, f ⟨n.val, lt_trans n.isLt (by decide)⟩ = f' n) :
    (∑ q : Fin 51200, onehotT batch (at2 g q) * f q)
      = ∑ n : Fin 50000, if batch (ix1 n) = BitVec.ofNat 32 g.val then f' n else 0 := by
  rw [FinSumWindow.sum_window (N := 51200) (W := 50000) 0 (by omega) (fun q : Fin 51200 => onehotT batch (at2 g q) * f q)
    fun P hP => by
      show onehotT batch (at2 g P) * f P = 0
      rw [oh_apply, bpK_apply, dif_neg (by omega), if_neg (ofNat_ne_allOnes g), zero_mul]]
  refine Finset.sum_congr rfl fun n _ => ?_
  have e : (⟨0 + n.val, by omega⟩ : Fin 51200) = ⟨n.val, lt_trans n.isLt (by decide)⟩ := Fin.ext (Nat.zero_add _)
  show onehotT batch (at2 g ⟨0 + n.val, _⟩) * f ⟨0 + n.val, _⟩ = _
  rw [e, oh_apply, bpK_apply, dif_pos n.isLt, hf, ite_mul, one_mul, zero_mul]

theorem toInt_eq_iff (w : BitVec 32) : w.toInt = (g.val : ℤ) ↔ w = BitVec.ofNat 32 g.val := by
  have hg : (BitVec.ofNat 32 g.val).toInt = (g.val : ℤ) :=
    StableHlo.Predicate.toInt_ofNat_small g.val (by have := g.isLt; omega)
  exact ⟨fun e => BitVec.eq_of_toInt_eq (e.trans hg.symm), fun e => by rw [e, hg]⟩

theorem idxR_apply (n : Fin 50000) : idxR batch (ix2 n (0 : Fin 1)) = batch (ix1 n) := by
  have e : ix2 n (0 : Fin 1) = StableHlo.Predicate.ixP n := by
    funext a
    match a with
    | ⟨0, _⟩ => rfl
    | ⟨1, _⟩ => rfl
  rw [e]
  exact (StableHlo.Predicate.bcast_col1 _ batch n).trans (congrArg _ (ofFin_eq_ix1 n))

-- the scattered rows at (g, c): the entries (n, c) summed over the rows n of group g
theorem sumsR_apply :
    Host.scatterAdd (F := Ideal) D2
        (broadcastInDim Cert.ReferenceIdeal.S64x64 ![] Cert.ReferenceIdeal.Facts₀.bcast_S_S64x64 (constant Cert.ReferenceIdeal.S_ .f32 0x00000000#32))
        (idxR batch) (h : FVec Ideal Cert.ReferenceIdeal.S50000x64 .f32) (at2 g j)
      = ∑ n : Fin 50000, if batch (ix1 n) = BitVec.ofNat 32 g.val then h (at2 n j) else 0 := by
  show Ideal.ofBits .f32 0x00000000#32 + ∑ u ∈ Finset.univ.filter (fun u : S50000x64.Idx => D2.resultIdx? u (idxR batch) = some (at2 g j)), h u = _
  rw [Ideal.ofBits_zero_f32, zero_add, Finset.sum_filter, sum_idx2]
  refine Finset.sum_congr rfl fun n _ => ?_
  have key : ∀ b : Fin 64, D2.resultIdx? (ix2 n b) (idxR batch) = some (at2 g j)
      ↔ (batch (ix1 n) = BitVec.ofNat 32 g.val ∧ b = j) := fun b => by
    rw [lands2]
    show (idxR batch (ix2 n (0 : Fin 1))).toInt = (g.val : ℤ) ∧ b = j ↔ _
    rw [idxR_apply, toInt_eq_iff]
  by_cases e : batch (ix1 n) = BitVec.ofNat 32 g.val
  · rw [if_pos e, Finset.sum_eq_single j]
    · rw [if_pos ((key j).2 ⟨e, rfl⟩)]; rfl
    · intro b _ hb; exact if_neg fun hh => hb ((key b).1 hh).2
    · intro hh; exact absurd (Finset.mem_univ j) hh
  · rw [if_neg e]
    exact Finset.sum_eq_zero fun b _ => if_neg fun hh => e ((key b).1 hh).1

-- the scattered ones at g: the number of rows of group g
theorem cntsR_apply :
    Host.scatterAdd (F := Ideal) D1
        (broadcastInDim Cert.ReferenceIdeal.S64 ![] Cert.ReferenceIdeal.Facts₀.bcast_S_S64 (constant Cert.ReferenceIdeal.S_ .f32 0x00000000#32))
        (idxR batch)
        (broadcastInDim Cert.ReferenceIdeal.S50000 ![] Cert.ReferenceIdeal.Facts₀.bcast_S_S50000 (constant Cert.ReferenceIdeal.S_ .f32 0x3F800000#32))
        (ix1 g)
      = ∑ n : Fin 50000, if batch (ix1 n) = BitVec.ofNat 32 g.val then (1 : EReal) else 0 := by
  show Ideal.ofBits .f32 0x00000000#32 + ∑ u ∈ Finset.univ.filter (fun u : S50000.Idx => D1.resultIdx? u (idxR batch) = some (ix1 g)),
      Ideal.ofBits .f32 0x3F800000#32 = _
  rw [Ideal.ofBits_zero_f32, zero_add, Ideal.ofBits_one_f32, Finset.sum_filter, ← Equiv.sum_comp (idxEquiv1 (n := 50000)).symm]
  refine Finset.sum_congr rfl fun n _ => ?_
  have key : D1.resultIdx? (ix1 n) (idxR batch) = some (ix1 g) ↔ batch (ix1 n) = BitVec.ofNat 32 g.val := by
    rw [lands1]
    show (idxR batch (ix2 n (0 : Fin 1))).toInt = (g.val : ℤ) ↔ _
    rw [idxR_apply, toInt_eq_iff]
  show (if D1.resultIdx? (ix1 n) _ = some (ix1 g) then (1 : EReal) else 0) = _
  rw [if_congr key rfl rfl]

theorem hostDivf_apply {s : Shape} (x y : FVec Ideal s .f32) (i : s.Idx) : Host.divf x y i = Ideal.div (x i) (y i) := rfl

-- both pools are, per group, the sum of the group's rows divided by max (1, the group's size)
theorem pool_eq :
    specPool (onehotT batch) (padRows h)
      = Host.divf (F := Ideal)
        (Host.scatterAdd D2
          (broadcastInDim Cert.ReferenceIdeal.S64x64 ![] Cert.ReferenceIdeal.Facts₀.bcast_S_S64x64 (constant Cert.ReferenceIdeal.S_ .f32 0x00000000#32))
          (idxR batch) (h : FVec Ideal Cert.ReferenceIdeal.S50000x64 .f32))
        (broadcastInDim Cert.ReferenceIdeal.S64x64 ![0, 1] Cert.ReferenceIdeal.Facts₀.bcast_S64x1_S64x64_0_1
          (broadcastInDim Cert.ReferenceIdeal.S64x1 ![0] Cert.ReferenceIdeal.Facts₀.bcast_S64_S64x1_0
            (maximumf (broadcastInDim Cert.ReferenceIdeal.S64 ![] Cert.ReferenceIdeal.Facts₀.bcast_S_S64 (id (constant Cert.ReferenceIdeal.S_ .f32 0x3F800000#32)))
              (Host.scatterAdd D1
                (broadcastInDim Cert.ReferenceIdeal.S64 ![] Cert.ReferenceIdeal.Facts₀.bcast_S_S64 (constant Cert.ReferenceIdeal.S_ .f32 0x00000000#32))
                (idxR batch)
                (broadcastInDim Cert.ReferenceIdeal.S50000 ![] Cert.ReferenceIdeal.Facts₀.bcast_S_S50000 (constant Cert.ReferenceIdeal.S_ .f32 0x3F800000#32)))))) := by
  funext i
  obtain ⟨g, j, rfl⟩ : ∃ g j : Fin 64, i = at2 g j := ⟨i 0, i 1, eq_ix2 i⟩
  have hden : ∀ M : FVec Ideal Cert.ReferenceIdeal.S64 .f32,
      broadcastInDim Cert.ReferenceIdeal.S64x64 ![0, 1] Cert.ReferenceIdeal.Facts₀.bcast_S64x1_S64x64_0_1
        (broadcastInDim Cert.ReferenceIdeal.S64x1 ![0] Cert.ReferenceIdeal.Facts₀.bcast_S64_S64x1_0 M) (at2 g j) = M (ix1 g) := fun M =>
    (StableHlo.Predicate.bcast_rows _ _ M g j).trans (congrArg _ (ofFin_eq_ix1 g))
  rw [hostDivf_apply, sumsR_apply, hden, maximumf_apply, cntsR_apply]
  show Ideal.div (∑ q : Fin 51200, onehotT batch (at2 g q) * padRows h (at2 q j)) (max (∑ q : Fin 51200, onehotT batch (at2 g q)) 1)
    = Ideal.div _ (max (Ideal.ofBits .f32 0x3F800000#32) _)
  rw [oh_sum batch g _ _ (hp_apply h j), Ideal.ofBits_one_f32, max_comm,
    (Finset.sum_congr rfl fun q _ => (mul_one _).symm).trans (oh_sum batch g (fun _ => 1) (fun _ => 1) fun _ => rfl)]

end Cert.PoolMath

end
-- ==== Proof.Bridge.lean ====
import proofs.«407319_j12446815224334_1_alg».proof.Proof.KI.KRes
import proofs.«407319_j12446815224334_1_alg».proof.Proof.RefSpec
import proofs.«407319_j12446815224334_1_alg».proof.Proof.Gen.ReferenceIdeal.Run
import proofs.«407319_j12446815224334_1_alg».proof.Proof.Gen.ReferenceIdeal
import proofs.«407319_j12446815224334_1_alg».proof.Proof.Gen.KernelIdeal
import proofs.«407319_j12446815224334_1_alg».proof.Proof.PoolMath

noncomputable section

namespace Cert.Bridge

open Cert.ReferenceIdeal Cert.ReferenceIdeal.Gen Idealize.ShloMosaic Idealize.ShloMosaic.TcCoe Idealize.SL.Sem Idealize.ShloMosaic.StableHlo
open Cert.KernelIdeal.Hand Cert.RefSpec

theorem bridge (m : (ℓ : Loc Cert.KernelIdeal.nD Cert.KernelIdeal.τ Cert.KernelIdeal.sig) → Buf (Elt Ideal) ℓ)
    (m' : (ℓ : Loc nD τ sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.KernelIdeal.nD) :
    (Cert.ReferenceIdeal.Value.res_main_v82 (F := Ideal) m' c : S64x1.Idx → EReal) = kres m c := by
  obtain ⟨h0, h1, h2, h3, h4, h5, h6, h7, h8, h9, h10, h11, h12, h13, h14, h15⟩ := hagree c
  unfold Cert.ReferenceIdeal.Value.res_main_v82
  rw [aff dot_S64x16_S16x1_S64x1_1_0_0_1_n_n rfl Cert.KernelIdeal.Facts₀.shapeCasts_S1_S1x1, clamp0,
    aff dot_S64x32_S32x16_S64x16_1_0_0_1_n_n rfl Cert.KernelIdeal.Facts₀.shapeCasts_S16_S1x16, clamp0,
    aff dot_S64x64_S64x32_S64x32_1_0_0_1_n_n rfl Cert.KernelIdeal.Facts₀.shapeCasts_S32_S1x32,
    relu_row Cert.KernelIdeal.Facts₀.shapeCasts_S64_S1x64, relu_row Cert.KernelIdeal.Facts₀.shapeCasts_S64_S1x64, relu_row Cert.KernelIdeal.Facts₀.shapeCasts_S64_S1x64,
    dot_plain dot_S50000x64_S64x64_S50000x64_1_0_0_1_n_n rfl, dot_plain dot_S50000x64_S64x64_S50000x64_1_0_0_1_n_n rfl,
    dot_plain dot_S50000x64_S64x64_S50000x64_1_0_0_1_n_n rfl,
    h0, h1, h2, h3, h4, h5, h6, h7, h8, h9, h10, h11, h12, h13, h14, h15]
  unfold kres kPool kH3 kY2 kY1 kY0 specMLP agg
  rw [← Cert.PoolMath.pool_eq]
  rfl

end Cert.Bridge

end
-- ==== Proof.lean ====
/- The five conjuncts of Cert.Claim: three frames, the trivial preservation, and the value claim through one closed term. -/
import proofs.«407319_j12446815224334_1_alg».proof.Defs
import proofs.«407319_j12446815224334_1_alg».proof.Proof.KB.Segs
import proofs.«407319_j12446815224334_1_alg».proof.Proof.KI.Segs
import proofs.«407319_j12446815224334_1_alg».proof.Proof.KI.Chain
import proofs.«407319_j12446815224334_1_alg».proof.Proof.KI.Val0
import proofs.«407319_j12446815224334_1_alg».proof.Proof.KI.Val1
import proofs.«407319_j12446815224334_1_alg».proof.Proof.KI.Val2
import proofs.«407319_j12446815224334_1_alg».proof.Proof.KI.Val3
import proofs.«407319_j12446815224334_1_alg».proof.Proof.KI.Val4
import proofs.«407319_j12446815224334_1_alg».proof.Proof.KI.Val5
import proofs.«407319_j12446815224334_1_alg».proof.Proof.Bridge
import proofs.«407319_j12446815224334_1_alg».proof.Proof.Gen.Kernel
import proofs.«407319_j12446815224334_1_alg».proof.Proof.Gen.KernelIdeal
import proofs.«407319_j12446815224334_1_alg».proof.Proof.Gen.ReferenceIdeal
import proofs.«407319_j12446815224334_1_alg».proof.Proof.Gen.ReferenceIdeal.Run
import proofs.«407319_j12446815224334_1_alg».proof.Proof.Gen.Pre_finite_inputs
import Idealize.ShloMosaic.Adequacy
import Idealize.ShloMosaic.Init

noncomputable section

namespace Cert.Proof

open Idealize.ShloMosaic Idealize.SL.Sem

/-- The word-level kernel's run with its result, the result forgotten. -/
theorem frame_kernel : Cert.frame_Kernel := fun m ρ _ =>
  (θ_run Cert.Kernel.defs _ _).mono (fun _ h c => (h c).2) (Cert.Kernel.Hand.run m ρ)

theorem frame_kernelIdeal : Cert.frame_KernelIdeal := fun m ρ _ =>
  (θ_run Cert.KernelIdeal.defs _ _).mono (fun _ h c => (h c).2) (Cert.KernelIdeal.Hand.run m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Each region's output is its specification of the arrays it is entered with; chained, the last one is the closed term. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.outs (F := Ideal) m 14 Cert.KernelIdeal.main_v64 c : Cert.KernelIdeal.S64x1.Idx → EReal) = Cert.KernelIdeal.Hand.kres m c :=
  Cert.KernelIdeal.Hand.chain_out m (Cert.KernelIdeal.Hand.outs m) c
    ((Cert.KernelIdeal.Hand.outs_2 m c).trans (Cert.KernelIdeal.Hand.val0 _ c))
    ((Cert.KernelIdeal.Hand.outs_4 m c).trans (Cert.KernelIdeal.Hand.val1 _ c))
    ((Cert.KernelIdeal.Hand.outs_6 m c).trans (Cert.KernelIdeal.Hand.val2 _ c))
    ((Cert.KernelIdeal.Hand.outs_8 m c).trans (Cert.KernelIdeal.Hand.val3 _ c))
    ((Cert.KernelIdeal.Hand.outs_12 m c).trans (Cert.KernelIdeal.Hand.val4 _ c))
    ((Cert.KernelIdeal.Hand.outs_14 m c).trans (Cert.KernelIdeal.Hand.val5 _ c))

/-- Both programs end at the same closed term of the launch memory. -/
theorem algebraic : Cert.algebraic_KernelIdeal_ReferenceIdeal := by
  intro m ρ m' ρ' _ hagree
  refine ⟨fun c => Cert.KernelIdeal.Hand.kres m c, ?_, ?_⟩
  · refine (θ_run Cert.KernelIdeal.defs _ _).mono (fun r h c => ?_) (Cert.KernelIdeal.Hand.run (F := Ideal) m ρ)
    exact ⟨(h c).1.trans (kernel_value m c), (h c).2⟩
  · exact (θ_run Cert.ReferenceIdeal.defs _ _).mono
      (fun _ h c => ⟨(h c).1.trans (Cert.Bridge.bridge m m' hagree c), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
